-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S100000x1 : Shape := ⟨2, ![100000, 1]⟩
abbrev S1x64 : Shape := ⟨2, ![1, 64]⟩
abbrev S10000x1 : Shape := ⟨2, ![10000, 1]⟩
abbrev S1x1 : Shape := ⟨2, ![1, 1]⟩

abbrev nBuf : Space → Nat
  | .hbm => 150
  | .vmem => 57
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000, .f32⟩
  | 28 => ⟨S100000x64, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x64, .f32⟩
  | 57 => ⟨S3200000x1, .f32⟩
  | 58 => ⟨S3200000x64, .f32⟩
  | 59 => ⟨S3200000x64, .f32⟩
  | 60 => ⟨S_, .f32⟩
  | 61 => ⟨S100000x64, .f32⟩
  | 62 => ⟨S3200000x1, .i32⟩
  | 63 => ⟨S100000x64, .f32⟩
  | 64 => ⟨S100000x1, .f32⟩
  | 65 => ⟨S1x64, .f32⟩
  | 66 => ⟨S100000x64, .f32⟩
  | 67 => ⟨S1x64, .f32⟩
  | 68 => ⟨S100000x64, .f32⟩
  | 69 => ⟨S100000x64, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x64, .f32⟩
  | 98 => ⟨S3200000x1, .f32⟩
  | 99 => ⟨S3200000x64, .f32⟩
  | 100 => ⟨S3200000x64, .f32⟩
  | 101 => ⟨S_, .f32⟩
  | 102 => ⟨S100000x64, .f32⟩
  | 103 => ⟨S3200000x1, .i32⟩
  | 104 => ⟨S100000x64, .f32⟩
  | 105 => ⟨S100000x1, .f32⟩
  | 106 => ⟨S1x64, .f32⟩
  | 107 => ⟨S100000x64, .f32⟩
  | 108 => ⟨S100000x64, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000, .f32⟩
  | 127 => ⟨S3200000, .f32⟩
  | _ => ⟨S100000x128, .f32⟩

abbrev hbmTy0_1 (i : Nat) : BufTy := match i % 128 with
  | 0 => ⟨S_, .i32⟩
  | 1 => ⟨S3200000, .i32⟩
  | 2 => ⟨S3200000, .i1⟩
  | 3 => ⟨S_, .i32⟩
  | 4 => ⟨S3200000, .i32⟩
  | 5 => ⟨S3200000, .i32⟩
  | 6 => ⟨S3200000, .i32⟩
  | 7 => ⟨S3200000x1, .i32⟩
  | 8 => ⟨S3200000x64, .f32⟩
  | 9 => ⟨S3200000x1, .f32⟩
  | 10 => ⟨S3200000x64, .f32⟩
  | 11 => ⟨S3200000x64, .f32⟩
  | 12 => ⟨S_, .f32⟩
  | 13 => ⟨S100000x64, .f32⟩
  | 14 => ⟨S3200000x1, .i32⟩
  | 15 => ⟨S100000x64, .f32⟩
  | 16 => ⟨S100000x1, .f32⟩
  | 17 => ⟨S1x64, .f32⟩
  | 18 => ⟨S100000x64, .f32⟩
  | 19 => ⟨S100000x1, .i32⟩
  | 20 => ⟨S1x1, .f32⟩
  | 21 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x1, .f32⟩
  | .local _ .vmem, ⟨30, _⟩ => ⟨S10000x1, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x1, .f32⟩
  | .local _ .vmem, ⟨44, _⟩ => ⟨S10000x1, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x1, .i32⟩
  | .local _ .vmem, ⟨51, _⟩ => ⟨S10000x1, .i32⟩
  | .local _ .vmem, ⟨52, _⟩ => ⟨S64x1, .f32⟩
  | .local _ .vmem, ⟨53, _⟩ => ⟨S1x1, .f32⟩
  | .local _ .vmem, ⟨54, _⟩ => ⟨S64x1, .f32⟩
  | .local _ .vmem, ⟨55, _⟩ => ⟨S64x64, .f32⟩
  | .local _ .vmem, ⟨56, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_17 : Ref sig .tc := ⟨.hbm, 118, rfl⟩
abbrev main_v86 : Ref sig .tc := ⟨.hbm, 119, rfl⟩
abbrev main_v87 : Ref sig .tc := ⟨.hbm, 120, rfl⟩
abbrev main_c_18 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_19 : Ref sig .tc := ⟨.hbm, 128, rfl⟩
abbrev main_v94 : Ref sig .tc := ⟨.hbm, 129, rfl⟩
abbrev main_v95 : Ref sig .tc := ⟨.hbm, 130, rfl⟩
abbrev main_c_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_21 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_scratch0 : Ref sig .tc := ⟨.vmem, 55, rfl⟩
abbrev cc7_scratch1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem4_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S10000x64_d1_w32 : S10000x64.Iotas .tc 32 [1]
  natLt_1_32 : 1 < 32
  broadcasts_S64x1_S64x64 : S64x1.Broadcasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S3200000x1_S3200000_n_0_0_1_wf : ScatterDims.WF S100000 S3200000x1 S3200000 [] [0] [0] 1
  dot_S10000x128_S128x64_S10000x64_1_0_0_1_n_n_wf : DotDims.WF S10000x128 S128x64 S10000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S100000x64.size a
  hwx6_4 : ∀ i : grid6.Coords, EltTy.bits .f32 = 32 ∨ (Rect.block (s := S100000x64) S10000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S100000x1.size a
  hwx7_1 : ∀ i : grid7.Coords, EltTy.bits .i32 = 32 ∨ (Rect.block (s := S100000x1) S10000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x1.size a ≤ S64x1.size a
  hwx7_2 : ∀ i : grid7.Coords, EltTy.bits .f32 = 32 ∨ (Rect.block (s := S64x1) S64x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x1.size a ≤ S64x1.size a
  hwx7_4 : ∀ i : grid7.Coords, EltTy.bits .f32 = 32 ∨ (Rect.block (s := S64x1) S64x1.size (cc7_transform_4 i) (hinb7_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v78) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v107) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v108) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S10000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v109) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S64x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v111) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v112) S64x1.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x3200000, .i32⟩
  | 14 => ⟨S3200000, .i32⟩
  | 15 => ⟨S1x3200000, .i32⟩
  | 16 => ⟨S3200000, .i32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x64, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S3200000x1, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x64, .f32⟩
  | 57 => ⟨S3200000x64, .f32⟩
  | 58 => ⟨S3200000x64, .f32⟩
  | 59 => ⟨S_, .f32⟩
  | 60 => ⟨S100000x64, .f32⟩
  | 61 => ⟨S3200000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S100000x64, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S3200000x1, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x64, .f32⟩
  | 111 => ⟨S3200000x64, .f32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000, .f32⟩
  | 118 => ⟨S100000x1, .f32⟩
  | 119 => ⟨S100000x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000, .f32⟩
  | 19 => ⟨S3200000, .f32⟩
  | 20 => ⟨S3200000x1, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x64, .f32⟩
  | 30 => ⟨S3200000x64, .f32⟩
  | 31 => ⟨S3200000x64, .f32⟩
  | 32 => ⟨S_, .f32⟩
  | 33 => ⟨S100000x64, .f32⟩
  | 34 => ⟨S3200000x1, .i32⟩
  | 35 => ⟨S100000x64, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S64x64, .f32⟩
  | 49 => ⟨S100000x1, .i32⟩
  | 50 => ⟨S64x64, .f32⟩
  | 51 => ⟨S_, .f32⟩
  | 52 => ⟨S100000, .f32⟩
  | 53 => ⟨S_, .f32⟩
  | 54 => ⟨S64, .f32⟩
  | 55 => ⟨S100000x1, .i32⟩
  | 56 => ⟨S64, .f32⟩
  | 57 => ⟨S_, .f32⟩
  | 58 => ⟨S64, .f32⟩
  | 59 => ⟨S64, .f32⟩
  | 60 => ⟨S64x1, .f32⟩
  | 61 => ⟨S64x64, .f32⟩
  | 62 => ⟨S64x64, .f32⟩
  | 63 => ⟨S64x1, .f32⟩
  | 64 => ⟨S1x1, .f32⟩
  | 65 => ⟨S64x1, .f32⟩
  | 66 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_v54 : Ref sig .tc := ⟨.hbm, 81, rfl⟩
abbrev main_c_8 : Ref sig .tc := ⟨.hbm, 82, rfl⟩
abbrev main_v55 : Ref sig .tc := ⟨.hbm, 83, rfl⟩
abbrev main_v56 : Ref sig .tc := ⟨.hbm, 84, rfl⟩
abbrev main_c_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_10 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_12 : Ref sig .tc := ⟨.hbm, 102, rfl⟩
abbrev main_v71 : Ref sig .tc := ⟨.hbm, 103, rfl⟩
abbrev main_v72 : Ref sig .tc := ⟨.hbm, 104, rfl⟩
abbrev main_c_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call2_cst : Ref sig .tc := ⟨.hbm, 125, rfl⟩
abbrev main_call2_v0 : Ref sig .tc := ⟨.hbm, 126, rfl⟩
abbrev main_v91 : Ref sig .tc := ⟨.hbm, 127, rfl⟩
abbrev main_v92 : Ref sig .tc := ⟨.hbm, 128, rfl⟩
abbrev main_c_15 : Ref sig .tc := ⟨.hbm, 129, rfl⟩
abbrev main_v93 : Ref sig .tc := ⟨.hbm, 130, rfl⟩
abbrev main_v94 : Ref sig .tc := ⟨.hbm, 131, rfl⟩
abbrev main_c_16 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_17 : Ref sig .tc := ⟨.hbm, 138, rfl⟩
abbrev main_v100 : Ref sig .tc := ⟨.hbm, 139, rfl⟩
abbrev main_v101 : Ref sig .tc := ⟨.hbm, 140, rfl⟩
abbrev main_c_18 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_19 : Ref sig .tc := ⟨.hbm, 149, rfl⟩
abbrev main_v109 : Ref sig .tc := ⟨.hbm, 150, rfl⟩
abbrev main_v110 : Ref sig .tc := ⟨.hbm, 151, rfl⟩
abbrev main_c_20 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_21 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_call3_cst : Ref sig .tc := ⟨.hbm, 172, rfl⟩
abbrev main_call3_v0 : Ref sig .tc := ⟨.hbm, 173, rfl⟩
abbrev main_v129 : Ref sig .tc := ⟨.hbm, 174, rfl⟩
abbrev main_cst_22 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_23 : Ref sig .tc := ⟨.hbm, 179, rfl⟩
abbrev main_v133 : Ref sig .tc := ⟨.hbm, 180, rfl⟩
abbrev main_cst_24 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_25 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.K.Reg0.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The output block after the body: the product of the two input blocks, stored over the whole block. -/
def out0_2 (x0 : Vec F S10000x128 .f32) (x1 : Vec F S128x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body reads both input blocks whole and stores their product over the whole output block; the inputs are left as they were. -/
theorem sound_kernel0 (c : Dev nD) (E : Set ℕ) (i : grid0.Coords) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: the arrays as entered, each input buffer at its block, the output buffer at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [before0_0, before0_1]
  dsimp only [dat0, Pipeline.Dat.owesAt, Pipeline.Dat.bound]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Cert.Kernel.Hand
-- ==== Proof.K.Reg1.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S10000x1 := Rect.unit (s := S10000x1) ![0, 0] S10000x1.size inb_S10000x1_S10000x1_0_0
abbrev r1_2 : Rect S1x64 := Rect.unit (s := S1x64) ![0, 0] S1x64.size inb_S1x64_S1x64_0_0

/-- The output block after the body: the clamped combination of the aggregate, degree, feature and bias blocks, stored over the whole block. -/
def out1_4 (x0 : Vec F S10000x64 .f32) (x1 : Vec F S10000x64 .f32) (x2 : Vec F S10000x1 .f32) (x3 : Vec F S1x64 .f32) : Vec F S10000x64 .f32 :=
  View.canon [⟨r1_0, k1_pay1 (View.ld x1 r1_0) (View.ld x2 r1_1) (View.ld x0 r1_0) (View.ld x3 r1_2)⟩]

theorem cover1_4 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in
/-- The body reads its four input blocks whole and stores their combination over the whole output block; the inputs are left as they were. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S10000x64 .f32) (x2 : Vec F S10000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_relu_kernel i arg1 harg1 arg2 harg2 arg3 harg3 arg4 harg4 arg5 harg5) K := by
  simp only [cc1__combine_relu_kernel_eq_skeleton]; unfold cc1__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data: the arrays as entered, each input buffer at its block, the output buffer at the combination of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp only [before1_0, before1_1, before1_2, before1_3]
  dsimp only [dat1, Pipeline.Dat.owesAt, Pipeline.Dat.bound]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

end Cert.Kernel.Hand
-- ==== Proof.K.Reg2.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

def out2_3 (x0 : Vec F S10000x64 .f32) (x1 : Vec F S64x64 .f32) (x2 : Vec F S1x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body reads its three input blocks whole and stores the clamped product-plus-bias over the whole output block; the inputs are left as they were. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_bias_relu_kernel i arg1 harg1 arg2 harg2 arg3 harg3 arg4 harg4) K := by
  simp only [cc2__dense_bias_relu_kernel_eq_skeleton]; unfold cc2__dense_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as entered, each input buffer at its block, the output buffer at the payload of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [before2_0, before2_1, before2_2]
  dsimp only [dat2, Pipeline.Dat.owesAt, Pipeline.Dat.bound]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe

end Cert.Kernel.Hand
-- ==== Proof.K.Reg3.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S64x64 := Rect.unit (s := S64x64) ![0, 0] S64x64.size inb_S64x64_S64x64_0_0
abbrev r3_2 : Rect S10000x64 := Rect.unit (s := S10000x64) ![0, 0] S10000x64.size inb_S10000x64_S10000x64_0_0

/-- The output block after the body: the product of the two input blocks, stored over the whole block. -/
def out3_2 (x0 : Vec F S10000x64 .f32) (x1 : Vec F S64x64 .f32) : Vec F S10000x64 .f32 :=
  View.canon [⟨r3_2, k3_pay1 (View.ld x0 r3_0) (View.ld x1 r3_1)⟩]

theorem cover3_2 (p0 : Vec F S10000x64 .f32) (y : S10000x64.Idx) :
    ∃ pc ∈ ([⟨r3_2, p0⟩] : List (View.Piece (Elt F) S10000x64 .f32)), y ∈ pc.1.set :=
  View.cover_of_tiled [⟨r3_2, p0⟩] S10000x64.size (by rfl) y

set_option maxHeartbeats 1000000 in
/-- The body reads both input blocks whole and stores their product over the whole output block; the inputs are left as they were. -/
theorem sound_kernel3 (c : Dev nD) (E : Set ℕ) (i : grid3.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data: the arrays as entered, each input buffer at its block, the output buffer at the product of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [before3_0, before3_1]
  dsimp only [dat3, Pipeline.Dat.owesAt, Pipeline.Dat.bound]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe

end Cert.Kernel.Hand
-- ==== Proof.K.Reg4.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_1 : Rect S10000x1 := Rect.unit (s := S10000x1) ![0, 0] S10000x1.size inb_S10000x1_S10000x1_0_0
abbrev r4_2 : Rect S1x64 := Rect.unit (s := S1x64) ![0, 0] S1x64.size inb_S1x64_S1x64_0_0

/-- The output block after the body: the clamped combination of the aggregate, degree, feature and bias blocks, stored over the whole block. -/
def out4_4 (x0 : Vec F S10000x64 .f32) (x1 : Vec F S10000x64 .f32) (x2 : Vec F S10000x1 .f32) (x3 : Vec F S1x64 .f32) : Vec F S10000x64 .f32 :=
  View.canon [⟨r4_0, k4_pay1 (View.ld x1 r4_0) (View.ld x2 r4_1) (View.ld x0 r4_0) (View.ld x3 r4_2)⟩]

theorem cover4_4 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

set_option maxHeartbeats 1000000 in
/-- The body reads its four input blocks whole and stores their combination over the whole output block; the inputs are left as they were. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S10000x64 .f32) (x2 : Vec F S10000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_relu_kernel i arg1 harg1 arg2 harg2 arg3 harg3 arg4 harg4 arg5 harg5) K := by
  simp only [cc4__combine_relu_kernel_eq_skeleton]; unfold cc4__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The region's proof data: the arrays as entered, each input buffer at its block, the output buffer at the combination of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [before4_0, before4_1, before4_2, before4_3]
  dsimp only [dat4, Pipeline.Dat.owesAt, Pipeline.Dat.bound]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  iframe H0 H1 H2 H3
  isplitl [H4]; · iexists _; iexact H4
  iintro ⟨H0, H1, H2, H3, H4⟩
  iframe

end Cert.Kernel.Hand
-- ==== Proof.K.Reg5.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S64x64 := Rect.unit (s := S64x64) ![0, 0] S64x64.size inb_S64x64_S64x64_0_0
abbrev r5_2 : Rect S10000x64 := Rect.unit (s := S10000x64) ![0, 0] S10000x64.size inb_S10000x64_S10000x64_0_0

/-- The output block after the body: the product of the two input blocks, stored over the whole block. -/
def out5_2 (x0 : Vec F S10000x64 .f32) (x1 : Vec F S64x64 .f32) : Vec F S10000x64 .f32 :=
  View.canon [⟨r5_2, k5_pay1 (View.ld x0 r5_0) (View.ld x1 r5_1)⟩]

theorem cover5_2 (p0 : Vec F S10000x64 .f32) (y : S10000x64.Idx) :
    ∃ pc ∈ ([⟨r5_2, p0⟩] : List (View.Piece (Elt F) S10000x64 .f32)), y ∈ pc.1.set :=
  View.cover_of_tiled [⟨r5_2, p0⟩] S10000x64.size (by rfl) y

set_option maxHeartbeats 1000000 in
/-- The body reads both input blocks whole and stores their product over the whole output block; the inputs are left as they were. -/
theorem sound_kernel5 (c : Dev nD) (E : Set ℕ) (i : grid5.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__matmul_kernel i arg0 harg0 arg1 harg1 arg2 harg2) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data: the arrays as entered, each input buffer at its block, the output buffer at the product of the two input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  simp only [before5_0, before5_1]
  dsimp only [dat5, Pipeline.Dat.owesAt, Pipeline.Dat.bound]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  iframe H0 H1
  isplitl [H2]; · iexists _; iexact H2
  iintro ⟨H0, H1, H2⟩
  iframe

end Cert.Kernel.Hand
-- ==== Proof.K.Reg6.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S10000x64 := Rect.unit (s := S10000x64) ![0, 0] S10000x64.size inb_S10000x64_S10000x64_0_0
abbrev r6_1 : Rect S10000x1 := Rect.unit (s := S10000x1) ![0, 0] S10000x1.size inb_S10000x1_S10000x1_0_0
abbrev r6_2 : Rect S1x64 := Rect.unit (s := S1x64) ![0, 0] S1x64.size inb_S1x64_S1x64_0_0

/-- The output block after the body: the clamped combination of the aggregate, degree, feature and bias blocks, stored over the whole block. -/
def out6_4 (x0 : Vec F S10000x64 .f32) (x1 : Vec F S10000x64 .f32) (x2 : Vec F S10000x1 .f32) (x3 : Vec F S1x64 .f32) : Vec F S10000x64 .f32 :=
  View.canon [⟨r6_0, k6_pay1 (View.ld x1 r6_0) (View.ld x2 r6_1) (View.ld x0 r6_0) (View.ld x3 r6_2)⟩]

theorem cover6_4 (p0 : Vec F S10000x64 .f32) (y : S10000x64.Idx) :
    ∃ pc ∈ ([⟨r6_0, p0⟩] : List (View.Piece (Elt F) S10000x64 .f32)), y ∈ pc.1.set :=
  View.cover_of_tiled [⟨r6_0, p0⟩] S10000x64.size (by rfl) y

set_option maxHeartbeats 1000000 in
/-- The body reads its four input blocks whole and stores their combination over the whole output block; the inputs are left as they were. -/
theorem sound_kernel6 (c : Dev nD) (E : Set ℕ) (i : grid6.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S10000x64 .f32) (x2 : Vec F S10000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_relu_kernel i arg1 harg1 arg2 harg2 arg3 harg3 arg4 harg4 arg5 harg5) K := by
  simp only [cc6__combine_relu_kernel_eq_skeleton]; unfold cc6__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The region's proof data: the arrays as entered, each input buffer at its block, the output buffer at the combination of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  show _ ⊢ wp _ _ _ (bodyAt6 t) _
  unfold bodyAt6
  simp only [before6_0, before6_1, before6_2, before6_3]
  dsimp only [dat6, Pipeline.Dat.owesAt, Pipeline.Dat.bound]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  iframe H0 H1 H2 H3
  isplitl [H4]; · iexists _; iexact H4
  iintro ⟨H0, H1, H2, H3, H4⟩
  iframe

end Cert.Kernel.Hand
-- ==== Proof.K.Reg7.lean ====
import proofs.«431294_j88802743812362_2_alg».proof.Proof.Gen.Kernel.Launch
import proofs.«431294_j88802743812362_2_alg».proof.Proof.Gen.Kernel.Skeleton
import proofs.«431294_j88802743812362_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The per-graph feature sums after the first `n + 1` row tiles: zero plus each tile's one-hot-weighted rows. -/
def sums7 (c : Dev nD) : (n : ℕ) → n < cfg7.N → Vec F S64x64 .f32
  | 0, hn => k7_pay4 (iblk7 V c 1 ⟨0, hn⟩) (iblk7 V c 0 ⟨0, hn⟩) k7_pay1
  | n + 1, hn => k7_pay4 (iblk7 V c 1 ⟨n + 1, hn⟩) (iblk7 V c 0 ⟨n + 1, hn⟩) (sums7 c n (Nat.lt_of_succ_lt hn))

/-- The per-graph node counts after the first `n + 1` row tiles. -/
def cnts7 (c : Dev nD) : (n : ℕ) → n < cfg7.N → Vec F S64x1 .f32
  | 0, hn => k7_pay5 (iblk7 V c 1 ⟨0, hn⟩) k7_pay2
  | n + 1, hn => k7_pay5 (iblk7 V c 1 ⟨n + 1, hn⟩) (cnts7 c n (Nat.lt_of_succ_lt hn))

theorem sums7_zero (c : Dev nD) (hn : 0 < cfg7.N) :
    sums7 V c 0 hn = k7_pay4 (iblk7 V c 1 ⟨0, hn⟩) (iblk7 V c 0 ⟨0, hn⟩) k7_pay1 := rfl
theorem sums7_succ (c : Dev nD) (n : ℕ) (hn : n + 1 < cfg7.N) :
    sums7 V c (n + 1) hn = k7_pay4 (iblk7 V c 1 ⟨n + 1, hn⟩) (iblk7 V c 0 ⟨n + 1, hn⟩) (sums7 V c n (Nat.lt_of_succ_lt hn)) := rfl
theorem cnts7_zero (c : Dev nD) (hn : 0 < cfg7.N) :
    cnts7 V c 0 hn = k7_pay5 (iblk7 V c 1 ⟨0, hn⟩) k7_pay2 := rfl
theorem cnts7_succ (c : Dev nD) (n : ℕ) (hn : n + 1 < cfg7.N) :
    cnts7 V c (n + 1) hn = k7_pay5 (iblk7 V c 1 ⟨n + 1, hn⟩) (cnts7 V c n (Nat.lt_of_succ_lt hn)) := rfl

def out7_4 (c : Dev nD) (n : ℕ) (hn : n < cfg7.N) : Vec F S64x1 .f32 :=
  k7_pay6 (cnts7 V c n hn) (sums7 V c n hn) (iblk7 V c 2 ⟨n, hn⟩) (iblk7 V c 3 ⟨n, hn⟩)

theorem out7_4_last (c : Dev nD) (hn : 9 < cfg7.N) :
    out7_4 V c 9 hn = k7_pay6 (cnts7 V c 9 hn) (sums7 V c 9 hn) (iblk7 V c 2 ⟨9, hn⟩) (iblk7 V c 3 ⟨9, hn⟩) := rfl

theorem hz7 : (![0, 0] : Fin 2 → Nat) = fun _ => 0 := funext fun a => by fin_cases a <;> rfl

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val = 0 :=
  (by decide +kernel : ∀ t : Fin grid7.N, cond7_0 (grid7.coords t) ↔ t.val = 0)

abbrev cond7_1 (i : grid7.Coords) : Prop := k7_cond2 i = 1#1

theorem hcond7_1 : ∀ t : Fin cfg7.N, cond7_1 (grid7.coords t) ↔ t.val = 9 :=
  (by decide +kernel : ∀ t : Fin grid7.N, cond7_1 (grid7.coords t) ↔ t.val = 9)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel

theorem idleAt7_4 : ∀ t : Fin cfg7.N, ¬cond7_1 (grid7.coords t) → cfg7.idle 4 (grid7.coords t) = true := by decide +kernel

theorem noFlush7_4 : ∀ t : Fin cfg7.N, ¬cond7_1 (grid7.coords t) → (cfg7.win 4).flush t = false := by decide +kernel

theorem liveAt7_4 : ∀ t : Fin cfg7.N, cond7_1 (grid7.coords t) → cfg7.idle 4 (grid7.coords t) = false := by decide +kernel

theorem read_writes_last_whole7 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

local macro "val7_simp" : tactic => `(tactic| simp only [View.readCov_unit_zero (S := S64x64) _ hz7, View.readCov_unit_zero (S := S64x1) _ hz7,
  View.readAt_eq_ld, View.ld_unit_zero (S := S10000x1) hz7, View.ld_unit_zero (S := S10000x64) hz7, View.ld_unit_zero (S := S64x64) hz7,
  View.ld_unit_zero (S := S64x1) hz7, View.ld_unit_zero (S := S1x1) hz7])

/-- First grid point: the accumulators are reset, then this tile's rows and counts are added. -/
theorem sound_kernel7_A (c : Dev nD) (E : Set ℕ) (i : grid7.Coords) (hc0 : cond7_0 i) (hc1 : ¬cond7_1 i)
    (arg1 : Memref sig .tc .vmem S10000x64 .f32) (harg1 : arg1.IsWhole) (arg2 : Memref sig .tc .vmem S10000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x64 .f32) (harg6 : arg6.IsWhole)
    (arg7 : Memref sig .tc .vmem S64x1 .f32) (harg7 : arg7.IsWhole)
    (x0 : Vec F S10000x64 .f32) (x1 : Vec F S10000x1 .i32) (x2 : Vec F S64x1 .f32) (x3 : Vec F S1x1 .f32) (x4 : Vec F S64x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k7_pay4 x1 x0 k7_pay1) ∗ owns (c : Thread nD τ) arg7 fullShare (k7_pay5 x1 k7_pay2)) -∗ K ⟨⟩))
      ⊢ wp frame (wpE (defs₀ (F := F)) Variants.none c none) E (cc7__pool_linear_kernel i arg1 harg1 arg2 harg2 arg3 harg3 arg4 harg4 arg5 harg5 arg6 harg6 arg7 harg7) K := by
  simp only [cc7__pool_linear_kernel_eq_skeleton]; unfold cc7__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (try sl_unfold_words)
    rw [read_writes_last_whole7 (S := S64x64) _ _ hz7]
    (try sl_unfold_words)
    val7_simp
  iexists _; isplitr
  swap; · iexact H6
  ipureintro
  (try sl_unfold_words)
  rw [read_writes_last_whole7 (S := S64x1) _ _ hz7]
  (try sl_unfold_words)
  val7_simp

/-- A middle grid point: this tile's rows and counts are added to the accumulators. -/
theorem sound_kernel7_B (c : Dev nD) (E : Set ℕ) (i : grid7.Coords) (hc0 : ¬cond7_0 i) (hc1 : ¬cond7_1 i)
    (arg1 : Memref sig .tc .vmem S10000x64 .f32) (harg1 : arg1.IsWhole) (arg2 : Memref sig .tc .vmem S10000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x64 .f32) (harg6 : arg6.IsWhole)
    (arg7 : Memref sig .tc .vmem S64x1 .f32) (harg7 : arg7.IsWhole)
    (x0 : Vec F S10000x64 .f32) (x1 : Vec F S10000x1 .i32) (x2 : Vec F S64x1 .f32) (x3 : Vec F S1x1 .f32) (x4 : Vec F S64x1 .f32)
    (s0 : Vec F S64x64 .f32) (s1 : Vec F S64x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k7_pay4 x1 x0 s0) ∗ owns (c : Thread nD τ) arg7 fullShare (k7_pay5 x1 s1)) -∗ K ⟨⟩))
      ⊢ wp frame (wpE (defs₀ (F := F)) Variants.none c none) E (cc7__pool_linear_kernel i arg1 harg1 arg2 harg2 arg3 harg3 arg4 harg4 arg5 harg5 arg6 harg6 arg7 harg7) K := by
  simp only [cc7__pool_linear_kernel_eq_skeleton]; unfold cc7__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (try sl_unfold_words)
    rw [read_writes_last_whole7 (S := S64x64) _ _ hz7]
    (try sl_unfold_words)
    val7_simp
  iexists _; isplitr
  swap; · iexact H6
  ipureintro
  (try sl_unfold_words)
  rw [read_writes_last_whole7 (S := S64x1) _ _ hz7]
  (try sl_unfold_words)
  val7_simp

/-- Last grid point: after the last tile is added the mean is taken and the head applied, and the result block is stored. -/
theorem sound_kernel7_C (c : Dev nD) (E : Set ℕ) (i : grid7.Coords) (hc0 : ¬cond7_0 i) (hc1 : cond7_1 i)
    (arg1 : Memref sig .tc .vmem S10000x64 .f32) (harg1 : arg1.IsWhole) (arg2 : Memref sig .tc .vmem S10000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x64 .f32) (harg6 : arg6.IsWhole)
    (arg7 : Memref sig .tc .vmem S64x1 .f32) (harg7 : arg7.IsWhole)
    (x0 : Vec F S10000x64 .f32) (x1 : Vec F S10000x1 .i32) (x2 : Vec F S64x1 .f32) (x3 : Vec F S1x1 .f32)
    (s0 : Vec F S64x64 .f32) (s1 : Vec F S64x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k7_pay6 (k7_pay5 x1 s1) (k7_pay4 x1 x0 s0) x2 x3)
            ∗ owns (c : Thread nD τ) arg6 fullShare (k7_pay4 x1 x0 s0) ∗ owns (c : Thread nD τ) arg7 fullShare (k7_pay5 x1 s1)) -∗ K ⟨⟩))
      ⊢ wp frame (wpE (defs₀ (F := F)) Variants.none c none) E (cc7__pool_linear_kernel i arg1 harg1 arg2 harg2 arg3 harg3 arg4 harg4 arg5 harg5 arg6 harg6 arg7 harg7) K := by
  simp only [cc7__pool_linear_kernel_eq_skeleton]; unfold cc7__pool_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    (try sl_unfold_words)
    rw [read_writes_last_whole7 (S := S64x1) _ _ hz7]
    (try sl_unfold_words)
    val7_simp
  isplitl [H5]
  · iexists _; isplitr
    swap; · iexact H5
    ipureintro
    (try sl_unfold_words)
    rw [read_writes_last_whole7 (S := S64x64) _ _ hz7]
    (try sl_unfold_words)
    val7_simp
  iexists _; isplitr
  swap; · iexact H6
  ipureintro
  (try sl_unfold_words)
  rw [read_writes_last_whole7 (S := S64x1) _ _ hz7]
  (try sl_unfold_words)
  val7_simp

def PhiS7 (c : Dev nD) : (n : ℕ) → n ≤ cfg7.N → sProp 𝕄
  | 0, _ => Pipeline.ΦA spec7 c
  | n + 1, hn => iprop(iprop(owns (c : Thread nD τ) (Memref.whole cc7_scratch0 : Memref sig .tc .vmem S64x64 .f32) fullShare (sums7 V c n hn)
        ∗ owns (c : Thread nD τ) (Memref.whole cc7_scratch1 : Memref sig .tc .vmem S64x1 .f32) fullShare (cnts7 V c n hn)
        ∗ Pipeline.scopedRestBut (Ix := Unit) (Name := ℕ) (U := UR sig nD τ) (Lvl := ℕ) (Val := Elt F) spec7 c [cc7_scratch0, cc7_scratch1])
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) (Memref.whole cc7_scratch0 : Memref sig .tc .vmem S64x64 .f32) fullShare (sums7 V c n hn)
        ∗ owns (c : Thread nD τ) (Memref.whole cc7_scratch1 : Memref sig .tc .vmem S64x1 .f32) fullShare (cnts7 V c n hn)
        ∗ Pipeline.scopedRestBut (Ix := Unit) (Name := ℕ) (U := UR sig nD τ) (Lvl := ℕ) (Val := Elt F) spec7 c [cc7_scratch0, cc7_scratch1])
      ∗ (∃ r, prngReg c r)) := rfl

theorem PhiS7_pos (c : Dev nD) (n : ℕ) (h : n ≤ cfg7.N) (hz : n ≠ 0) :
    PhiS7 V c n h = iprop(iprop(owns (c : Thread nD τ) (Memref.whole cc7_scratch0 : Memref sig .tc .vmem S64x64 .f32) fullShare (sums7 V c (n - 1) (by omega))
        ∗ owns (c : Thread nD τ) (Memref.whole cc7_scratch1 : Memref sig .tc .vmem S64x1 .f32) fullShare (cnts7 V c (n - 1) (by omega))
        ∗ Pipeline.scopedRestBut (Ix := Unit) (Name := ℕ) (U := UR sig nD τ) (Lvl := ℕ) (Val := Elt F) spec7 c [cc7_scratch0, cc7_scratch1])
      ∗ (∃ r, prngReg c r)) := by
  cases n with
  | zero => exact absurd rfl hz
  | succ n => rfl

theorem PhiA7_eq (c : Dev nD) :
    (Pipeline.ΦA spec7 c : sProp 𝕄)
      = iprop(iprop(iprop((∃ d, owns (c : Thread nD τ) (Memref.whole cc7_scratch0 : Memref sig .tc .vmem S64x64 .f32) fullShare d)
          ∗ (∃ d, owns (c : Thread nD τ) (Memref.whole cc7_scratch1 : Memref sig .tc .vmem S64x1 .f32) fullShare d))
          ∗ Pipeline.scopedRestBut (Ix := Unit) (Name := ℕ) (U := UR sig nD τ) (Lvl := ℕ) (Val := Elt F) spec7 c [cc7_scratch0, cc7_scratch1])
        ∗ (∃ r, prngReg c r)) := by
  unfold Pipeline.ΦA; rw [scopedRest7_split]; simp only [owns_whole]; try rfl

/-- The region's proof data: after point `t` the accumulators are `sums7` and `cnts7` at `t`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 V c t.val t.isLt
  Φ t := PhiS7 V c t.val (Nat.le_of_lt_succ t.isLt)
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 V c t.val t.isLt := by dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d

theorem sums7_first (c : Dev nD) (t : Fin cfg7.N) (h0 : t.val = 0) :
    sums7 V c t.val t.isLt = k7_pay4 (iblk7 V c 1 t) (iblk7 V c 0 t) k7_pay1 := by
  obtain ⟨n, hn⟩ := t
  cases n with
  | zero => rfl
  | succ n => exact absurd h0 (Nat.succ_ne_zero n)
theorem sums7_later (c : Dev nD) (t : Fin cfg7.N) (h0 : t.val ≠ 0) :
    sums7 V c t.val t.isLt = k7_pay4 (iblk7 V c 1 t) (iblk7 V c 0 t) (sums7 V c (t.val - 1) (Nat.lt_of_le_of_lt (Nat.sub_le _ _) t.isLt)) := by
  obtain ⟨n, hn⟩ := t
  cases n with
  | zero => exact absurd rfl h0
  | succ n => rfl
theorem cnts7_first (c : Dev nD) (t : Fin cfg7.N) (h0 : t.val = 0) :
    cnts7 V c t.val t.isLt = k7_pay5 (iblk7 V c 1 t) k7_pay2 := by
  obtain ⟨n, hn⟩ := t
  cases n with
  | zero => rfl
  | succ n => exact absurd h0 (Nat.succ_ne_zero n)
theorem cnts7_later (c : Dev nD) (t : Fin cfg7.N) (h0 : t.val ≠ 0) :
    cnts7 V c t.val t.isLt = k7_pay5 (iblk7 V c 1 t) (cnts7 V c (t.val - 1) (Nat.lt_of_le_of_lt (Nat.sub_le _ _) t.isLt)) := by
  obtain ⟨n, hn⟩ := t
  cases n with
  | zero => exact absurd rfl h0
  | succ n => rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 4 t (idleAt7_4 t hc1) (noFlush7_4 t hc1)]
    rw [sums7_first V c t h0, cnts7_first V c t h0]
    rw [PhiS7_castSucc V c t, PhiS7_zero V c _ _ h0, PhiA7_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel7_A c Set.univ (grid7.coords t) hc0 hc1 _ _ _ _ _ _ _ _ _ _ _ _ _ _ (iblk7 V c 0 t) (iblk7 V c 1 t) (iblk7 V c 2 t) (iblk7 V c 3 t) ((dat7 V c).before 4 t d4) _)
    iframe H0 H1 H2 H3 H4 HS0 HS1
    iintro ⟨H0, H1, H2, H3, H4, HS0, HS1⟩
    iframe
    iexists _; iexact H4
  · have hc0 : ¬cond7_0 (grid7.coords t) := fun h => h0 ((hcond7_0 t).mp h)
    rw [sums7_later V c t h0, cnts7_later V c t h0]
    rw [PhiS7_castSucc V c t, PhiS7_pos V c _ _ h0]
    by_cases h9 : t.val = 9
    · have hc1 : cond7_1 (grid7.coords t) := (hcond7_1 t).mpr h9
      rw [show (dat7 V c).leavesExact 4 t = owns (c : Thread nD τ) (st7_4 t) fullShare ((dat7 V c).after 4 t) from by
        unfold Dat.leavesExact; rw [liveAt7_4 t hc1], after7_4]
      unfold out7_4
      rw [sums7_later V c t h0, cnts7_later V c t h0]
      iintro ⟨⟨⟨HS0, HS1, Hr⟩, Hg⟩, Ho, ⟨%d0, H0⟩, ⟨%d1, H1⟩, ⟨%d2, H2⟩, ⟨%d3, H3⟩, ⟨%d4, H4⟩⟩
      iapply (sound_kernel7_C c Set.univ (grid7.coords t) hc0 hc1 _ _ _ _ _ _ _ _ _ _ _ _ _ _ (iblk7 V c 0 t) (iblk7 V c 1 t) (iblk7 V c 2 t) (iblk7 V c 3 t) _ _ _)
      iframe H0 H1 H2 H3 HS0 HS1
      isplitl [H4]; · iexists _; iexact H4
      iintro ⟨H0, H1, H2, H3, H4, HS0, HS1⟩
      iframe
    · have hc1 : ¬cond7_1 (grid7.coords t) := fun h => h9 ((hcond7_1 t).mp h)
      rw [Dat.leavesExact_idle (dat7 V c) 4 t (idleAt7_4 t hc1) (noFlush7_4 t hc1)]
      iintro ⟨⟨⟨HS0, HS1, Hr⟩, Hg⟩, Ho, ⟨%d0, H0⟩, ⟨%d1, H1⟩, ⟨%d2, H2⟩, ⟨%d3, H3⟩, ⟨%d4, H4⟩⟩
      iapply (sound_kernel7_B c Set.univ (grid7.coords t) hc0 hc1 _ _ _ _ _ _ _ _ _ _ _ _ _ _ (iblk7 V c 0 t) (iblk7 V c 1 t) (iblk7 V c 2 t) (iblk7 V c 3 t) ((dat7 V c).before 4 t d4) _ _ _)
      iframe H0 H1 H2 H3 H4 HS0 HS1
      iintro ⟨H0, H1, H2, H3, H4, HS0, HS1⟩
      iframe
      iexists _; iexact H4

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem hout7 (c : Dev nD) : (dat7 V c).Φ (Fin.last cfg7.N) ⊢ Pipeline.ΦA spec7 c := by
  have hN : cfg7.N = 10 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨HS0, HS1, Hr⟩, Hg⟩
  isplitl [HS0 HS1 Hr]
  · isplitl [HS0 HS1]
    · isplitl [HS0]
      · iexists _; iexact HS0
      iexists _; iexact HS1
    iexact Hr
  iexact Hg

end Cert.Kernel.Hand

end
-- ==== Proof.K.Run.lean ====
import proofs.«431294_j88802743812362_2_alg».proof.Proof.Gen.Kernel.Regions
import proofs.«431294_j88802743812362_2_alg».proof.Proof.K.Reg0
import proofs.«431294_j88802743812362_2_alg».proof.Proof.K.Reg1
import proofs.«431294_j88802743812362_2_alg».proof.Proof.K.Reg2
import proofs.«431294_j88802743812362_2_alg».proof.Proof.K.Reg3
import proofs.«431294_j88802743812362_2_alg».proof.Proof.K.Reg4
import proofs.«431294_j88802743812362_2_alg».proof.Proof.K.Reg5
import proofs.«431294_j88802743812362_2_alg».proof.Proof.K.Reg6
import proofs.«431294_j88802743812362_2_alg».proof.Proof.K.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- The contents after region `p`: its arrays at their final contents, every other buffer as before. -/
def exitW (p : Fin 8) (d : (c : Dev nD) → Dat τ (Elt F) Unit ℕ (UR sig nD τ) ℕ (cfgs p) c)
    (W : Dev nD → Valuation τ sig (Elt F)) : Dev nD → Valuation τ sig (Elt F) := fun c =>
  Pipeline.withArrays (cfgs p).spec c (W c) fun w => (d c).arrAt w (cfgs p).N

theorem exitW_arr {p : Fin 8} (launch : Pipeline.LaunchFacts (nD := nD) (τ := τ) cfgs p)
    (d : (c : Dev nD) → Dat τ (Elt F) Unit ℕ (UR sig nD τ) ℕ (cfgs p) c) (W : Dev nD → Valuation τ sig (Elt F))
    (c : Dev nD) (w : Fin (cfgs p).W) :
    exitW p d W c (Proc.devRef .tc (Pipeline.arrRef (cfgs p).spec w)) = (d c).arrAt w (cfgs p).N :=
  Pipeline.withArrays_arr _ launch.win.arr_inj c _ _ w

/-- An input array ends as it began, so a region changes its output array alone. -/
theorem exitW_keep {p : Fin 8} (launch : Pipeline.LaunchFacts (nD := nD) (τ := τ) cfgs p)
    (d : (c : Dev nD) → Dat τ (Elt F) Unit ℕ (UR sig nD τ) ℕ (cfgs p) c) (W : Dev nD → Valuation τ sig (Elt F))
    (hA : ∀ c w, (d c).A w = W c (Pipeline.arrRef (cfgs p).spec w)) (out : Ref sig .tc)
    (hin : ∀ w : Fin (cfgs p).W, Pipeline.arrRef (cfgs p).spec w ≠ out → ((cfgs p).win w).isOut = false)
    (c : Dev nD) (b : Ref sig .tc) (hb : b ∉ ([out] : List (Ref sig .tc))) :
    exitW p d W c (Proc.devRef .tc b) = W c (Proc.devRef .tc b) := by
  by_cases h : ∀ w, Pipeline.arrRef (cfgs p).spec w ≠ b
  · exact Pipeline.withArrays_of_ne _ c _ _ b h
  · obtain ⟨w, hw⟩ := Classical.not_forall.mp h
    obtain rfl : Pipeline.arrRef (cfgs p).spec w = b := Classical.not_not.mp hw
    exact (exitW_arr launch d W c w).trans
      (((d c).arrAt_in w (hin w fun e => hb (List.mem_singleton.mpr e)) _).trans (hA c w))

set_option backward.isDefEq.respectTransparency.types false in
/-- Region `p` as a segment of @main: entered with every buffer at `W`, left with every buffer at `exitW`. -/
def regOf (pd : (p : Fin 8) → (c : Dev nD) → Dat τ (Elt F) Unit ℕ (UR sig nD τ) ℕ (cfgs p) c) (p : Fin 8)
    (launch : Pipeline.LaunchFacts (nD := nD) (τ := τ) cfgs p) (W : Dev nD → Valuation τ sig (Elt F))
    (hbody : ∀ c, BodyObligation (pd p c) (defs₀ (F := F)) Variants.none () Set.univ)
    (hA : ∀ c w, (pd p c).A w = W c (Pipeline.arrRef (cfgs p).spec w))
    (hd : ∀ c, (pd p c).q = (fun _ => fullShare) ∧ (pd p c).owed = (fun _ => 0) ∧ (pd p c).recorded = fun _ => Set.univ)
    (hin : ∀ c, Pipeline.ΦA (cfgs p).spec c ⊢ (pd p c).Φ 0)
    (hout : ∀ c, (pd p c).Φ (Fin.last (cfgs p).N) ⊢ Pipeline.ΦA (cfgs p).spec c) :
    Pipeline.RegionSeg (pcfgs (F := F)) adm pd () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c t => congrFun (hd c).2.1 t
  pre c := iprop(StableHlo.held (c : Thread nD τ) (Pipeline.ucRefs τ sig) (W c) ∗ R c)
  post c := iprop(StableHlo.held (c : Thread nD τ) (Pipeline.ucRefs τ sig) (exitW p (pd p) W c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd launch.win launch.arr_whole c
      ((pd p c).share_full fun w => congrFun (hd c).1 w) (fun b => W c b) (hA c)
    rw [Pipeline.unscopedBufs_held] at hsplit
    have h0 : (pd p c).owed 0 = 0 := congrFun (hd c).2.1 0
    have hr : (pd p c).recorded 0 = Set.univ := congrFun (hd c).2.2 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W', HO⟩; iexists W'; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full fun w => congrFun (hd c).1 w)
      (fun b => W c b) (fun b => exitW p (pd p) W c b) ((pd p c).arrAt · (cfgs p).N)
      (fun w => (exitW_arr launch (pd p) W c w).symm)
      (fun b hb => Pipeline.withArrays_of_ne _ c _ _ b fun w e => hb (Finset.mem_image.mpr ⟨w, Finset.mem_univ _, e⟩))
    rw [Pipeline.unscopedBufs_held] at hjoin
    have hN : (pd p c).owed (Fin.last (cfgs p).N) = 0 := congrFun (hd c).2.1 _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W', -, HO⟩; iexists W'; iexact HO

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := exitW 0 (dat0 (V1 m ρ)) (W1 m ρ)
theorem W2_out (c : Dev nD) : W2 m ρ c (Proc.devRef .tc main_v12) = (dat0 (V1 m ρ) c).arrAt 2 cfg0.N :=
  exitW_arr launch0 _ _ c 2
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 : Dev nD → Valuation τ sig (Elt F) := exitW 1 (dat1 (V3 m ρ)) (W3 m ρ)
theorem W4_out (c : Dev nD) : W4 m ρ c (Proc.devRef .tc main_v43) = (dat1 (V3 m ρ) c).arrAt 4 cfg1.N :=
  exitW_arr launch1 _ _ c 4
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 : Dev nD → Valuation τ sig (Elt F) := exitW 2 (dat2 (V5 m ρ)) (W5 m ρ)
theorem W6_out (c : Dev nD) : W6 m ρ c (Proc.devRef .tc main_v45) = (dat2 (V5 m ρ) c).arrAt 3 cfg2.N :=
  exitW_arr launch2 _ _ c 3
abbrev V6 : (c : Dev nD) → (b : Ref sig .tc) → Buf (Elt F) ((c : Thread nD τ).loc b) := fun c b => W6 m ρ c b
def W7 : Dev nD → Valuation τ sig (Elt F) := exitW 3 (dat3 (V6 m ρ)) (W6 m ρ)
theorem W7_out (c : Dev nD) : W7 m ρ c (Proc.devRef .tc main_v46) = (dat3 (V6 m ρ) c).arrAt 2 cfg3.N :=
  exitW_arr launch3 _ _ c 2
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
def W9 : Dev nD → Valuation τ sig (Elt F) := exitW 4 (dat4 (V8 m ρ)) (W8 m ρ)
theorem W9_out (c : Dev nD) : W9 m ρ c (Proc.devRef .tc main_v77) = (dat4 (V8 m ρ) c).arrAt 4 cfg4.N :=
  exitW_arr launch4 _ _ c 4
abbrev V9 : (c : Dev nD) → (b : Ref sig .tc) → Buf (Elt F) ((c : Thread nD τ).loc b) := fun c b => W9 m ρ c b
def W10 : Dev nD → Valuation τ sig (Elt F) := exitW 5 (dat5 (V9 m ρ)) (W9 m ρ)
theorem W10_out (c : Dev nD) : W10 m ρ c (Proc.devRef .tc main_v78) = (dat5 (V9 m ρ) c).arrAt 2 cfg5.N :=
  exitW_arr launch5 _ _ c 2
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
def W12 : Dev nD → Valuation τ sig (Elt F) := exitW 6 (dat6 (V11 m ρ)) (W11 m ρ)
theorem W12_out (c : Dev nD) : W12 m ρ c (Proc.devRef .tc main_v109) = (dat6 (V11 m ρ) c).arrAt 4 cfg6.N :=
  exitW_arr launch6 _ _ c 4
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
def W14 : Dev nD → Valuation τ sig (Elt F) := exitW 7 (dat7 (V13 m ρ)) (W13 m ρ)
theorem W14_out (c : Dev nD) : W14 m ρ c (Proc.devRef .tc main_v112) = (dat7 (V13 m ρ) c).arrAt 4 cfg7.N :=
  exitW_arr launch7 _ _ c 4

def pdats : (p : Fin 8) → (c : Dev nD) → Dat τ (Elt F) Unit ℕ (UR sig nD τ) ℕ (cfgs p) c
  | ⟨0, _⟩ => dat0 (V1 m ρ)
  | ⟨1, _⟩ => dat1 (V3 m ρ)
  | ⟨2, _⟩ => dat2 (V5 m ρ)
  | ⟨3, _⟩ => dat3 (V6 m ρ)
  | ⟨4, _⟩ => dat4 (V8 m ρ)
  | ⟨5, _⟩ => dat5 (V9 m ρ)
  | ⟨6, _⟩ => dat6 (V11 m ρ)
  | ⟨7, _⟩ => dat7 (V13 m ρ)

/-- The contents at the boundary after `k` items of @main, and what item `k` may write. -/
def Ws : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | _ => W14 m ρ
noncomputable def wr : ℕ → List (Ref sig .tc)
  | 0 => hostOps0_W
  | 1 => [main_v12]
  | 2 => hostOps1_W
  | 3 => [main_v43]
  | 4 => hostOps2_W
  | 5 => [main_v45]
  | 6 => [main_v46]
  | 7 => hostOps4_W
  | 8 => [main_v77]
  | 9 => [main_v78]
  | 10 => hostOps6_W
  | 11 => [main_v109]
  | 12 => hostOps7_W
  | 13 => [main_v112]
  | _ => []

theorem step_keep (c : Dev nD) (b : Ref sig .tc) : ∀ k, b ∉ wr k → Ws m ρ (k + 1) c (Proc.devRef .tc b) = Ws m ρ k c (Proc.devRef .tc b)
  | 0, h => StableHlo.after_of_writes_sub hostOps0 _ hostOps0_writes h
  | 1, h => exitW_keep launch0 _ _ (fun _ _ => rfl) main_v12 (by decide) c b h
  | 2, h => StableHlo.after_of_writes_sub hostOps1 _ hostOps1_writes h
  | 3, h => exitW_keep launch1 _ _ (fun _ _ => rfl) main_v43 (by decide) c b h
  | 4, h => StableHlo.after_of_writes_sub hostOps2 _ hostOps2_writes h
  | 5, h => exitW_keep launch2 _ _ (fun _ _ => rfl) main_v45 (by decide) c b h
  | 6, h => exitW_keep launch3 _ _ (fun _ _ => rfl) main_v46 (by decide) c b h
  | 7, h => StableHlo.after_of_writes_sub hostOps4 _ hostOps4_writes h
  | 8, h => exitW_keep launch4 _ _ (fun _ _ => rfl) main_v77 (by decide) c b h
  | 9, h => exitW_keep launch5 _ _ (fun _ _ => rfl) main_v78 (by decide) c b h
  | 10, h => StableHlo.after_of_writes_sub hostOps6 _ hostOps6_writes h
  | 11, h => exitW_keep launch6 _ _ (fun _ _ => rfl) main_v109 (by decide) c b h
  | 12, h => StableHlo.after_of_writes_sub hostOps7 _ hostOps7_writes h
  | 13, h => exitW_keep launch7 _ _ (fun _ _ => rfl) main_v112 (by decide) c b h
  | _ + 14, _ => rfl

/-- A buffer that no item between two boundaries writes holds at the later what it held at the earlier. -/
theorem walk (c : Dev nD) (b : Ref sig .tc) (i j : ℕ) (hij : i ≤ j) (hb : ∀ k, k < j → i ≤ k → b ∉ wr k) :
    Ws m ρ j c (Proc.devRef .tc b) = Ws m ρ i c (Proc.devRef .tc b) := by
  induction j, hij using Nat.le_induction with
  | base => rfl
  | succ j hij ih =>
    exact (step_keep m ρ c b j (hb j (Nat.lt_succ_self j) hij)).trans (ih fun k hk => hb k (Nat.lt_succ_of_lt hk))

set_option backward.isDefEq.respectTransparency.types false in
def reg0 := regOf (pdats m ρ) 0 launch0 (W1 m ρ) (body_obligation0 (V1 m ρ)) (fun _ _ => rfl) (fun _ => ⟨rfl, rfl, rfl⟩) (fun _ => .rfl) (fun _ => .rfl)
set_option backward.isDefEq.respectTransparency.types false in
def reg1 := regOf (pdats m ρ) 1 launch1 (W3 m ρ) (body_obligation1 (V3 m ρ)) (fun _ _ => rfl) (fun _ => ⟨rfl, rfl, rfl⟩) (fun _ => .rfl) (fun _ => .rfl)
set_option backward.isDefEq.respectTransparency.types false in
def reg2 := regOf (pdats m ρ) 2 launch2 (W5 m ρ) (body_obligation2 (V5 m ρ)) (fun _ _ => rfl) (fun _ => ⟨rfl, rfl, rfl⟩) (fun _ => .rfl) (fun _ => .rfl)
set_option backward.isDefEq.respectTransparency.types false in
def reg3 := regOf (pdats m ρ) 3 launch3 (W6 m ρ) (body_obligation3 (V6 m ρ)) (fun _ _ => rfl) (fun _ => ⟨rfl, rfl, rfl⟩) (fun _ => .rfl) (fun _ => .rfl)
set_option backward.isDefEq.respectTransparency.types false in
def reg4 := regOf (pdats m ρ) 4 launch4 (W8 m ρ) (body_obligation4 (V8 m ρ)) (fun _ _ => rfl) (fun _ => ⟨rfl, rfl, rfl⟩) (fun _ => .rfl) (fun _ => .rfl)
set_option backward.isDefEq.respectTransparency.types false in
def reg5 := regOf (pdats m ρ) 5 launch5 (W9 m ρ) (body_obligation5 (V9 m ρ)) (fun _ _ => rfl) (fun _ => ⟨rfl, rfl, rfl⟩) (fun _ => .rfl) (fun _ => .rfl)
set_option backward.isDefEq.respectTransparency.types false in
def reg6 := regOf (pdats m ρ) 6 launch6 (W11 m ρ) (body_obligation6 (V11 m ρ)) (fun _ _ => rfl) (fun _ => ⟨rfl, rfl, rfl⟩) (fun _ => .rfl) (fun _ => .rfl)
set_option backward.isDefEq.respectTransparency.types false in
def reg7 := regOf (pdats m ρ) 7 launch7 (W13 m ρ) (body_obligation7 (V13 m ρ)) (fun _ _ => rfl) (fun _ => ⟨rfl, rfl, rfl⟩) (hin7 (V13 m ρ)) (hout7 (V13 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .region (reg5 m ρ),
    .host (hseg hostOps6 hostOps6_sub hostOps6_fresh (W10 m ρ)),
    .region (reg6 m ρ),
    .host (hseg hostOps7 hostOps7_sub hostOps7_fresh (W12 m ρ)),
    .region (reg7 m ρ) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      Prog.lift (.customCall (Pipeline.entry 3) ()),
      StableHlo.seq hostOps4,
      Prog.lift (.customCall (Pipeline.entry 4) ()),
      Prog.lift (.customCall (Pipeline.entry 5) ()),
      StableHlo.seq hostOps6,
      Prog.lift (.customCall (Pipeline.entry 6) ()),
      StableHlo.seq hostOps7,
      Prog.lift (.customCall (Pipeline.entry 7) ()) ] from rfl]
  rfl

set_option backward.isDefEq.respectTransparency.types false in
/-- Every execution of @main terminates without fault, and every final memory holds each buffer at the last boundary's
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W14 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨Hh, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- An unscoped buffer that no item of @main writes ends as launched. -/
theorem kept {s : MemSt nD τ sig (Elt F)}
    (h : ∀ c : Dev nD, ∀ b ∈ Pipeline.ucRefs τ sig, s.mem (((c : Thread nD τ)).1, b) = W14 m ρ c b) (c : Dev nD) (b : Ref sig .tc)
    (hu : ¬ (Proc.devRef .tc b : DevRef τ sig).isScoped) (hb : ∀ k, k < 14 → 0 ≤ k → b ∉ wr k) :
    s.mem ((c.tc : Thread nD τ).loc b) = m ((c.tc : Thread nD τ).loc b) :=
  (h c _ (mem_uc b hu)).trans ((walk m ρ c b 0 14 (Nat.zero_le _) hb).trans rfl)

/-- The frame, at any post that follows from every such buffer ending as launched. -/
theorem frame {Q : PUnit × MemSt nD τ sig (Elt F) → Prop}
    (hQ : ∀ s : MemSt nD τ sig (Elt F), (∀ (c : Dev nD) (b : Ref sig .tc), ¬ (Proc.devRef .tc b : DevRef τ sig).isScoped →
      (∀ k, k < 14 → 0 ≤ k → b ∉ wr k) → s.mem ((c.tc : Thread nD τ).loc b) = m ((c.tc : Thread nD τ).loc b)) → Q (⟨⟩, s)) :
    θ_run defs (onTc (τ := τ) (main (F := F))) ⟨m, fun _ => 0, ρ⟩ Q :=
  (θ_run defs _ _).mono (fun r h => hQ r.2 fun c b => kept m ρ h c b) (run_all m ρ)

end Cert.Kernel.Hand

end
-- ==== Proof.KI.Reg0.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x64 := Rect.unit (s := S10000x64) ![0, 0] S10000x64.size inb_S10000x64_S10000x64_0_0

/-- The output block after the body: the product of the two input blocks, stored over the whole block. -/
def out0_2 (x0 : Vec F S10000x128 .f32) (x1 : Vec F S128x64 .f32) : Vec F S10000x64 .f32 :=
  View.canon [⟨r0_2, k0_pay1 (View.ld x0 r0_0) (View.ld x1 r0_1)⟩]

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body reads both input blocks whole and stores their product over the whole output block; the inputs are left as they were. -/
theorem sound_kernel0 (c : Dev nD) (E : Set ℕ) (i : grid0.Coords) (arg0 : Memref sig .tc .vmem S10000x128 .f32) (harg0 : arg0.IsWhole) (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: the arrays as entered, each input buffer at its block, the output buffer at the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  simp only [before0_0, before0_1]
  dsimp only [dat0, Pipeline.Dat.owesAt, Pipeline.Dat.bound]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

end Cert.KernelIdeal.Hand
-- ==== Proof.KI.Reg1.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x64 := Rect.unit (s := S10000x64) ![0, 0] S10000x64.size inb_S10000x64_S10000x64_0_0
abbrev r1_1 : Rect S10000x1 := Rect.unit (s := S10000x1) ![0, 0] S10000x1.size inb_S10000x1_S10000x1_0_0
abbrev r1_2 : Rect S1x64 := Rect.unit (s := S1x64) ![0, 0] S1x64.size inb_S1x64_S1x64_0_0

/-- The output block after the body: the clamped combination of the aggregate, degree, feature and bias blocks, stored over the whole block. -/
def out1_4 (x0 : Vec F S10000x64 .f32) (x1 : Vec F S10000x64 .f32) (x2 : Vec F S10000x1 .f32) (x3 : Vec F S1x64 .f32) : Vec F S10000x64 .f32 :=
  View.canon [⟨r1_0, k1_pay1 (View.ld x1 r1_0) (View.ld x2 r1_1) (View.ld x0 r1_0) (View.ld x3 r1_2)⟩]

theorem cover1_4 (p0 : Vec F S10000x64 .f32) (y : S10000x64.Idx) :
    ∃ pc ∈ ([⟨r1_0, p0⟩] : List (View.Piece (Elt F) S10000x64 .f32)), y ∈ pc.1.set :=
  View.cover_of_tiled [⟨r1_0, p0⟩] S10000x64.size (by rfl) y

set_option maxHeartbeats 1000000 in
/-- The body reads its four input blocks whole and stores their combination over the whole output block; the inputs are left as they were. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S10000x64 .f32) (x2 : Vec F S10000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__combine_relu_kernel i arg1 harg1 arg2 harg2 arg3 harg3 arg4 harg4 arg5 harg5) K := by
  simp only [cc1__combine_relu_kernel_eq_skeleton]; unfold cc1__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The region's proof data: the arrays as entered, each input buffer at its block, the output buffer at the combination of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp only [before1_0, before1_1, before1_2, before1_3]
  dsimp only [dat1, Pipeline.Dat.owesAt, Pipeline.Dat.bound]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  iframe H0 H1 H2 H3
  isplitl [H4]; · iexists _; iexact H4
  iintro ⟨H0, H1, H2, H3, H4⟩
  iframe

end Cert.KernelIdeal.Hand
-- ==== Proof.KI.Reg2.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

def out2_3 (x0 : Vec F S10000x64 .f32) (x1 : Vec F S64x64 .f32) (x2 : Vec F S1x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body reads its three input blocks whole and stores the clamped product-plus-bias over the whole output block; the inputs are left as they were. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__dense_bias_relu_kernel i arg1 harg1 arg2 harg2 arg3 harg3 arg4 harg4) K := by
  simp only [cc2__dense_bias_relu_kernel_eq_skeleton]; unfold cc2__dense_bias_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data: the arrays as entered, each input buffer at its block, the output buffer at the payload of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  simp only [before2_0, before2_1, before2_2]
  dsimp only [dat2, Pipeline.Dat.owesAt, Pipeline.Dat.bound]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  iframe H0 H1 H2
  isplitl [H3]; · iexists _; iexact H3
  iintro ⟨H0, H1, H2, H3⟩
  iframe

end Cert.KernelIdeal.Hand
-- ==== Proof.KI.Reg3.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S64x64 := Rect.unit (s := S64x64) ![0, 0] S64x64.size inb_S64x64_S64x64_0_0
abbrev r3_2 : Rect S10000x64 := Rect.unit (s := S10000x64) ![0, 0] S10000x64.size inb_S10000x64_S10000x64_0_0

/-- The output block after the body: the product of the two input blocks, stored over the whole block. -/
def out3_2 (x0 : Vec F S10000x64 .f32) (x1 : Vec F S64x64 .f32) : Vec F S10000x64 .f32 :=
  View.canon [⟨r3_2, k3_pay1 (View.ld x0 r3_0) (View.ld x1 r3_1)⟩]

theorem cover3_2 (p0 : Vec F S10000x64 .f32) (y : S10000x64.Idx) :
    ∃ pc ∈ ([⟨r3_2, p0⟩] : List (View.Piece (Elt F) S10000x64 .f32)), y ∈ pc.1.set :=
  View.cover_of_tiled [⟨r3_2, p0⟩] S10000x64.size (by rfl) y

set_option maxHeartbeats 1000000 in
/-- The body reads both input blocks whole and stores their product over the whole output block; the inputs are left as they were. -/
theorem sound_kernel3 (c : Dev nD) (E : Set ℕ) (i : grid3.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data: the arrays as entered, each input buffer at its block, the output buffer at the product of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [before3_0, before3_1]
  dsimp only [dat3, Pipeline.Dat.owesAt, Pipeline.Dat.bound]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe

end Cert.KernelIdeal.Hand
-- ==== Proof.KI.Reg4.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_1 : Rect S10000x1 := Rect.unit (s := S10000x1) ![0, 0] S10000x1.size inb_S10000x1_S10000x1_0_0
abbrev r4_2 : Rect S1x64 := Rect.unit (s := S1x64) ![0, 0] S1x64.size inb_S1x64_S1x64_0_0

/-- The output block after the body: the clamped combination of the aggregate, degree, feature and bias blocks, stored over the whole block. -/
def out4_4 (x0 : Vec F S10000x64 .f32) (x1 : Vec F S10000x64 .f32) (x2 : Vec F S10000x1 .f32) (x3 : Vec F S1x64 .f32) : Vec F S10000x64 .f32 :=
  View.canon [⟨r4_0, k4_pay1 (View.ld x1 r4_0) (View.ld x2 r4_1) (View.ld x0 r4_0) (View.ld x3 r4_2)⟩]

theorem cover4_4 (p0 : Vec F S10000x64 .f32) (y : S10000x64.Idx) :
    ∃ pc ∈ ([⟨r4_0, p0⟩] : List (View.Piece (Elt F) S10000x64 .f32)), y ∈ pc.1.set :=
  View.cover_of_tiled [⟨r4_0, p0⟩] S10000x64.size (by rfl) y

set_option maxHeartbeats 1000000 in
/-- The body reads its four input blocks whole and stores their combination over the whole output block; the inputs are left as they were. -/
theorem sound_kernel4 (c : Dev nD) (E : Set ℕ) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S10000x64 .f32) (x2 : Vec F S10000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_relu_kernel i arg1 harg1 arg2 harg2 arg3 harg3 arg4 harg4 arg5 harg5) K := by
  simp only [cc4__combine_relu_kernel_eq_skeleton]; unfold cc4__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The region's proof data: the arrays as entered, each input buffer at its block, the output buffer at the combination of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [before4_0, before4_1, before4_2, before4_3]
  dsimp only [dat4, Pipeline.Dat.owesAt, Pipeline.Dat.bound]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  iframe H0 H1 H2 H3
  isplitl [H4]; · iexists _; iexact H4
  iintro ⟨H0, H1, H2, H3, H4⟩
  iframe

end Cert.KernelIdeal.Hand
-- ==== Proof.KI.Reg5.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S64x64 := Rect.unit (s := S64x64) ![0, 0] S64x64.size inb_S64x64_S64x64_0_0
abbrev r5_2 : Rect S10000x64 := Rect.unit (s := S10000x64) ![0, 0] S10000x64.size inb_S10000x64_S10000x64_0_0

/-- The output block after the body: the product of the two input blocks, stored over the whole block. -/
def out5_2 (x0 : Vec F S10000x64 .f32) (x1 : Vec F S64x64 .f32) : Vec F S10000x64 .f32 :=
  View.canon [⟨r5_2, k5_pay1 (View.ld x0 r5_0) (View.ld x1 r5_1)⟩]

theorem cover5_2 (p0 : Vec F S10000x64 .f32) (y : S10000x64.Idx) :
    ∃ pc ∈ ([⟨r5_2, p0⟩] : List (View.Piece (Elt F) S10000x64 .f32)), y ∈ pc.1.set :=
  View.cover_of_tiled [⟨r5_2, p0⟩] S10000x64.size (by rfl) y

set_option maxHeartbeats 1000000 in
/-- The body reads both input blocks whole and stores their product over the whole output block; the inputs are left as they were. -/
theorem sound_kernel5 (c : Dev nD) (E : Set ℕ) (i : grid5.Coords) (arg0 : Memref sig .tc .vmem S10000x64 .f32) (harg0 : arg0.IsWhole) (arg1 : Memref sig .tc .vmem S64x64 .f32) (harg1 : arg1.IsWhole) (arg2 : Memref sig .tc .vmem S10000x64 .f32) (harg2 : arg2.IsWhole)
    (x0 : Vec F S10000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__matmul_kernel i arg0 harg0 arg1 harg1 arg2 harg2) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data: the arrays as entered, each input buffer at its block, the output buffer at the product of the two input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  show _ ⊢ wp _ _ _ (bodyAt5 t) _
  unfold bodyAt5
  simp only [before5_0, before5_1]
  dsimp only [dat5, Pipeline.Dat.owesAt, Pipeline.Dat.bound]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  iframe H0 H1
  isplitl [H2]; · iexists _; iexact H2
  iintro ⟨H0, H1, H2⟩
  iframe

end Cert.KernelIdeal.Hand
-- ==== Proof.KI.Reg6.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S10000x64 := Rect.unit (s := S10000x64) ![0, 0] S10000x64.size inb_S10000x64_S10000x64_0_0
abbrev r6_1 : Rect S10000x1 := Rect.unit (s := S10000x1) ![0, 0] S10000x1.size inb_S10000x1_S10000x1_0_0
abbrev r6_2 : Rect S1x64 := Rect.unit (s := S1x64) ![0, 0] S1x64.size inb_S1x64_S1x64_0_0

/-- The output block after the body: the clamped combination of the aggregate, degree, feature and bias blocks, stored over the whole block. -/
def out6_4 (x0 : Vec F S10000x64 .f32) (x1 : Vec F S10000x64 .f32) (x2 : Vec F S10000x1 .f32) (x3 : Vec F S1x64 .f32) : Vec F S10000x64 .f32 :=
  View.canon [⟨r6_0, k6_pay1 (View.ld x1 r6_0) (View.ld x2 r6_1) (View.ld x0 r6_0) (View.ld x3 r6_2)⟩]

theorem cover6_4 (p0 : Vec F S10000x64 .f32) (y : S10000x64.Idx) :
    ∃ pc ∈ ([⟨r6_0, p0⟩] : List (View.Piece (Elt F) S10000x64 .f32)), y ∈ pc.1.set :=
  View.cover_of_tiled [⟨r6_0, p0⟩] S10000x64.size (by rfl) y

set_option maxHeartbeats 1000000 in
/-- The body reads its four input blocks whole and stores their combination over the whole output block; the inputs are left as they were. -/
theorem sound_kernel6 (c : Dev nD) (E : Set ℕ) (i : grid6.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S10000x64 .f32) (x2 : Vec F S10000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_relu_kernel i arg1 harg1 arg2 harg2 arg3 harg3 arg4 harg4 arg5 harg5) K := by
  simp only [cc6__combine_relu_kernel_eq_skeleton]; unfold cc6__combine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-- The region's proof data: the arrays as entered, each input buffer at its block, the output buffer at the combination of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem after6_4 (c : Dev nD) (t : Fin cfg6.N) : (dat6 V c).after 4 t = out6_4 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

theorem body_obligation6 (c : Dev nD) : BodyObligation (dat6 (F := F) V c) (defs₀ (F := F)) Variants.none () Set.univ := fun t => by
  rw [bigSep_W6, bigSep_W6]
  show _ ⊢ wp _ _ _ (bodyAt6 t) _
  unfold bodyAt6
  simp only [before6_0, before6_1, before6_2, before6_3]
  dsimp only [dat6, Pipeline.Dat.owesAt, Pipeline.Dat.bound]
  iintro ⟨HΦ, Ho, ⟨%d0, H0⟩, ⟨%d1, H1⟩, ⟨%d2, H2⟩, ⟨%d3, H3⟩, ⟨%d4, H4⟩⟩
  iapply (sound_kernel6 c Set.univ _ _ _ _ _ _ _ _ _ _ _ (iblk6 V c 0 t) (iblk6 V c 1 t) (iblk6 V c 2 t) (iblk6 V c 3 t) _)
  iframe H0 H1 H2 H3
  isplitl [H4]; · iexists _; iexact H4
  iintro ⟨H0, H1, H2, H3, H4⟩
  iframe

end Cert.KernelIdeal.Hand
-- ==== Proof.KI.Reg7.lean ====
import proofs.«431294_j88802743812362_2_alg».proof.Proof.Gen.KernelIdeal.Launch
import proofs.«431294_j88802743812362_2_alg».proof.Proof.Gen.KernelIdeal.Skeleton
import proofs.«431294_j88802743812362_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The per-graph feature sums after the first `n + 1` row tiles: zero plus each tile's one-hot-weighted rows. -/
def sums7 (c : Dev nD) : (n : ℕ) → n < cfg7.N → Vec F S64x64 .f32
  | 0, hn => k7_pay4 (iblk7 V c 1 ⟨0, hn⟩) (iblk7 V c 0 ⟨0, hn⟩) k7_pay1
  | n + 1, hn => k7_pay4 (iblk7 V c 1 ⟨n + 1, hn⟩) (iblk7 V c 0 ⟨n + 1, hn⟩) (sums7 c n (Nat.lt_of_succ_lt hn))

/-- The per-graph node counts after the first `n + 1` row tiles. -/
def cnts7 (c : Dev nD) : (n : ℕ) → n < cfg7.N → Vec F S64x1 .f32
  | 0, hn => k7_pay5 (iblk7 V c 1 ⟨0, hn⟩) k7_pay2
  | n + 1, hn => k7_pay5 (iblk7 V c 1 ⟨n + 1, hn⟩) (cnts7 c n (Nat.lt_of_succ_lt hn))

theorem sums7_zero (c : Dev nD) (hn : 0 < cfg7.N) :
    sums7 V c 0 hn = k7_pay4 (iblk7 V c 1 ⟨0, hn⟩) (iblk7 V c 0 ⟨0, hn⟩) k7_pay1 := rfl
theorem sums7_succ (c : Dev nD) (n : ℕ) (hn : n + 1 < cfg7.N) :
    sums7 V c (n + 1) hn = k7_pay4 (iblk7 V c 1 ⟨n + 1, hn⟩) (iblk7 V c 0 ⟨n + 1, hn⟩) (sums7 V c n (Nat.lt_of_succ_lt hn)) := rfl
theorem cnts7_zero (c : Dev nD) (hn : 0 < cfg7.N) :
    cnts7 V c 0 hn = k7_pay5 (iblk7 V c 1 ⟨0, hn⟩) k7_pay2 := rfl
theorem cnts7_succ (c : Dev nD) (n : ℕ) (hn : n + 1 < cfg7.N) :
    cnts7 V c (n + 1) hn = k7_pay5 (iblk7 V c 1 ⟨n + 1, hn⟩) (cnts7 V c n (Nat.lt_of_succ_lt hn)) := rfl

def out7_4 (c : Dev nD) (n : ℕ) (hn : n < cfg7.N) : Vec F S64x1 .f32 :=
  k7_pay6 (cnts7 V c n hn) (sums7 V c n hn) (iblk7 V c 2 ⟨n, hn⟩) (iblk7 V c 3 ⟨n, hn⟩)

theorem out7_4_last (c : Dev nD) (hn : 9 < cfg7.N) :
    out7_4 V c 9 hn = k7_pay6 (cnts7 V c 9 hn) (sums7 V c 9 hn) (iblk7 V c 2 ⟨9, hn⟩) (iblk7 V c 3 ⟨9, hn⟩) := rfl

theorem hz7 : (![0, 0] : Fin 2 → Nat) = fun _ => 0 := funext fun a => by fin_cases a <;> rfl

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val = 0 :=
  (by decide +kernel : ∀ t : Fin grid7.N, cond7_0 (grid7.coords t) ↔ t.val = 0)

abbrev cond7_1 (i : grid7.Coords) : Prop := k7_cond2 i = 1#1

theorem hcond7_1 : ∀ t : Fin cfg7.N, cond7_1 (grid7.coords t) ↔ t.val = 9 :=
  (by decide +kernel : ∀ t : Fin grid7.N, cond7_1 (grid7.coords t) ↔ t.val = 9)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel

theorem idleAt7_4 : ∀ t : Fin cfg7.N, ¬cond7_1 (grid7.coords t) → cfg7.idle 4 (grid7.coords t) = true := by decide +kernel

theorem noFlush7_4 : ∀ t : Fin cfg7.N, ¬cond7_1 (grid7.coords t) → (cfg7.win 4).flush t = false := by decide +kernel

theorem liveAt7_4 : ∀ t : Fin cfg7.N, cond7_1 (grid7.coords t) → cfg7.idle 4 (grid7.coords t) = false := by decide +kernel

theorem read_writes_last_whole7 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

local macro "val7_simp" : tactic => `(tactic| simp only [View.readCov_unit_zero (S := S64x64) _ hz7, View.readCov_unit_zero (S := S64x1) _ hz7,
  View.readAt_eq_ld, View.ld_unit_zero (S := S10000x1) hz7, View.ld_unit_zero (S := S10000x64) hz7, View.ld_unit_zero (S := S64x64) hz7,
  View.ld_unit_zero (S := S64x1) hz7, View.ld_unit_zero (S := S1x1) hz7])

/-- First grid point: the accumulators are reset, then this tile's rows and counts are added. -/
theorem sound_kernel7_A (c : Dev nD) (E : Set ℕ) (i : grid7.Coords) (hc0 : cond7_0 i) (hc1 : ¬cond7_1 i)
    (arg1 : Memref sig .tc .vmem S10000x64 .f32) (harg1 : arg1.IsWhole) (arg2 : Memref sig .tc .vmem S10000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x64 .f32) (harg6 : arg6.IsWhole)
    (arg7 : Memref sig .tc .vmem S64x1 .f32) (harg7 : arg7.IsWhole)
    (x0 : Vec F S10000x64 .f32) (x1 : Vec F S10000x1 .i32) (x2 : Vec F S64x1 .f32) (x3 : Vec F S1x1 .f32) (x4 : Vec F S64x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k7_pay4 x1 x0 k7_pay1) ∗ owns (c : Thread nD τ) arg7 fullShare (k7_pay5 x1 k7_pay2)) -∗ K ⟨⟩))
      ⊢ wp frame (wpE (defs₀ (F := F)) Variants.none c none) E (cc7__pool_linear_kernel i arg1 harg1 arg2 harg2 arg3 harg3 arg4 harg4 arg5 harg5 arg6 harg6 arg7 harg7) K := by
  simp only [cc7__pool_linear_kernel_eq_skeleton]; unfold cc7__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (try sl_unfold_words)
    rw [read_writes_last_whole7 (S := S64x64) _ _ hz7]
    (try sl_unfold_words)
    val7_simp
  iexists _; isplitr
  swap; · iexact H6
  ipureintro
  (try sl_unfold_words)
  rw [read_writes_last_whole7 (S := S64x1) _ _ hz7]
  (try sl_unfold_words)
  val7_simp

/-- A middle grid point: this tile's rows and counts are added to the accumulators. -/
theorem sound_kernel7_B (c : Dev nD) (E : Set ℕ) (i : grid7.Coords) (hc0 : ¬cond7_0 i) (hc1 : ¬cond7_1 i)
    (arg1 : Memref sig .tc .vmem S10000x64 .f32) (harg1 : arg1.IsWhole) (arg2 : Memref sig .tc .vmem S10000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x64 .f32) (harg6 : arg6.IsWhole)
    (arg7 : Memref sig .tc .vmem S64x1 .f32) (harg7 : arg7.IsWhole)
    (x0 : Vec F S10000x64 .f32) (x1 : Vec F S10000x1 .i32) (x2 : Vec F S64x1 .f32) (x3 : Vec F S1x1 .f32) (x4 : Vec F S64x1 .f32)
    (s0 : Vec F S64x64 .f32) (s1 : Vec F S64x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k7_pay4 x1 x0 s0) ∗ owns (c : Thread nD τ) arg7 fullShare (k7_pay5 x1 s1)) -∗ K ⟨⟩))
      ⊢ wp frame (wpE (defs₀ (F := F)) Variants.none c none) E (cc7__pool_linear_kernel i arg1 harg1 arg2 harg2 arg3 harg3 arg4 harg4 arg5 harg5 arg6 harg6 arg7 harg7) K := by
  simp only [cc7__pool_linear_kernel_eq_skeleton]; unfold cc7__pool_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    (try sl_unfold_words)
    rw [read_writes_last_whole7 (S := S64x64) _ _ hz7]
    (try sl_unfold_words)
    val7_simp
  iexists _; isplitr
  swap; · iexact H6
  ipureintro
  (try sl_unfold_words)
  rw [read_writes_last_whole7 (S := S64x1) _ _ hz7]
  (try sl_unfold_words)
  val7_simp

/-- Last grid point: after the last tile is added the mean is taken and the head applied, and the result block is stored. -/
theorem sound_kernel7_C (c : Dev nD) (E : Set ℕ) (i : grid7.Coords) (hc0 : ¬cond7_0 i) (hc1 : cond7_1 i)
    (arg1 : Memref sig .tc .vmem S10000x64 .f32) (harg1 : arg1.IsWhole) (arg2 : Memref sig .tc .vmem S10000x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x64 .f32) (harg6 : arg6.IsWhole)
    (arg7 : Memref sig .tc .vmem S64x1 .f32) (harg7 : arg7.IsWhole)
    (x0 : Vec F S10000x64 .f32) (x1 : Vec F S10000x1 .i32) (x2 : Vec F S64x1 .f32) (x3 : Vec F S1x1 .f32)
    (s0 : Vec F S64x64 .f32) (s1 : Vec F S64x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k7_pay6 (k7_pay5 x1 s1) (k7_pay4 x1 x0 s0) x2 x3)
            ∗ owns (c : Thread nD τ) arg6 fullShare (k7_pay4 x1 x0 s0) ∗ owns (c : Thread nD τ) arg7 fullShare (k7_pay5 x1 s1)) -∗ K ⟨⟩))
      ⊢ wp frame (wpE (defs₀ (F := F)) Variants.none c none) E (cc7__pool_linear_kernel i arg1 harg1 arg2 harg2 arg3 harg3 arg4 harg4 arg5 harg5 arg6 harg6 arg7 harg7) K := by
  simp only [cc7__pool_linear_kernel_eq_skeleton]; unfold cc7__pool_linear_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    (try sl_unfold_words)
    rw [read_writes_last_whole7 (S := S64x1) _ _ hz7]
    (try sl_unfold_words)
    val7_simp
  isplitl [H5]
  · iexists _; isplitr
    swap; · iexact H5
    ipureintro
    (try sl_unfold_words)
    rw [read_writes_last_whole7 (S := S64x64) _ _ hz7]
    (try sl_unfold_words)
    val7_simp
  iexists _; isplitr
  swap; · iexact H6
  ipureintro
  (try sl_unfold_words)
  rw [read_writes_last_whole7 (S := S64x1) _ _ hz7]
  (try sl_unfold_words)
  val7_simp

def PhiS7 (c : Dev nD) : (n : ℕ) → n ≤ cfg7.N → sProp 𝕄
  | 0, _ => Pipeline.ΦA spec7 c
  | n + 1, hn => iprop(iprop(owns (c : Thread nD τ) (Memref.whole cc7_scratch0 : Memref sig .tc .vmem S64x64 .f32) fullShare (sums7 V c n hn)
        ∗ owns (c : Thread nD τ) (Memref.whole cc7_scratch1 : Memref sig .tc .vmem S64x1 .f32) fullShare (cnts7 V c n hn)
        ∗ Pipeline.scopedRestBut (Ix := Unit) (Name := ℕ) (U := UR sig nD τ) (Lvl := ℕ) (Val := Elt F) spec7 c [cc7_scratch0, cc7_scratch1])
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) (Memref.whole cc7_scratch0 : Memref sig .tc .vmem S64x64 .f32) fullShare (sums7 V c n hn)
        ∗ owns (c : Thread nD τ) (Memref.whole cc7_scratch1 : Memref sig .tc .vmem S64x1 .f32) fullShare (cnts7 V c n hn)
        ∗ Pipeline.scopedRestBut (Ix := Unit) (Name := ℕ) (U := UR sig nD τ) (Lvl := ℕ) (Val := Elt F) spec7 c [cc7_scratch0, cc7_scratch1])
      ∗ (∃ r, prngReg c r)) := rfl

theorem PhiS7_pos (c : Dev nD) (n : ℕ) (h : n ≤ cfg7.N) (hz : n ≠ 0) :
    PhiS7 V c n h = iprop(iprop(owns (c : Thread nD τ) (Memref.whole cc7_scratch0 : Memref sig .tc .vmem S64x64 .f32) fullShare (sums7 V c (n - 1) (by omega))
        ∗ owns (c : Thread nD τ) (Memref.whole cc7_scratch1 : Memref sig .tc .vmem S64x1 .f32) fullShare (cnts7 V c (n - 1) (by omega))
        ∗ Pipeline.scopedRestBut (Ix := Unit) (Name := ℕ) (U := UR sig nD τ) (Lvl := ℕ) (Val := Elt F) spec7 c [cc7_scratch0, cc7_scratch1])
      ∗ (∃ r, prngReg c r)) := by
  cases n with
  | zero => exact absurd rfl hz
  | succ n => rfl

theorem PhiA7_eq (c : Dev nD) :
    (Pipeline.ΦA spec7 c : sProp 𝕄)
      = iprop(iprop(iprop((∃ d, owns (c : Thread nD τ) (Memref.whole cc7_scratch0 : Memref sig .tc .vmem S64x64 .f32) fullShare d)
          ∗ (∃ d, owns (c : Thread nD τ) (Memref.whole cc7_scratch1 : Memref sig .tc .vmem S64x1 .f32) fullShare d))
          ∗ Pipeline.scopedRestBut (Ix := Unit) (Name := ℕ) (U := UR sig nD τ) (Lvl := ℕ) (Val := Elt F) spec7 c [cc7_scratch0, cc7_scratch1])
        ∗ (∃ r, prngReg c r)) := by
  unfold Pipeline.ΦA; rw [scopedRest7_split]; simp only [owns_whole]; try rfl

/-- The region's proof data: after point `t` the accumulators are `sums7` and `cnts7` at `t`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 V c t.val t.isLt
  Φ t := PhiS7 V c t.val (Nat.le_of_lt_succ t.isLt)
  q _ := fullShare
  owed _ := 0

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7_4 V c t.val t.isLt := by dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d
theorem before7_2 (c : Dev nD) (t : Fin cfg7.N) (d) : (dat7 V c).before 2 t d = iblk7 V c 2 t :=
  (dat7 V c).before_in_eq_fetched 2 rfl (fun _ => rfl) (fun _ _ _ => rfl) (fun _ => rfl) t d
theorem before7_3 (c : Dev nD) (t : Fin cfg7.N) (d) : (dat7 V c).before 3 t d = iblk7 V c 3 t :=
  (dat7 V c).before_in_eq_fetched 3 rfl (fun _ => rfl) (fun _ _ _ => rfl) (fun _ => rfl) t d

theorem sums7_first (c : Dev nD) (t : Fin cfg7.N) (h0 : t.val = 0) :
    sums7 V c t.val t.isLt = k7_pay4 (iblk7 V c 1 t) (iblk7 V c 0 t) k7_pay1 := by
  obtain ⟨n, hn⟩ := t
  cases n with
  | zero => rfl
  | succ n => exact absurd h0 (Nat.succ_ne_zero n)
theorem sums7_later (c : Dev nD) (t : Fin cfg7.N) (h0 : t.val ≠ 0) :
    sums7 V c t.val t.isLt = k7_pay4 (iblk7 V c 1 t) (iblk7 V c 0 t) (sums7 V c (t.val - 1) (Nat.lt_of_le_of_lt (Nat.sub_le _ _) t.isLt)) := by
  obtain ⟨n, hn⟩ := t
  cases n with
  | zero => exact absurd rfl h0
  | succ n => rfl
theorem cnts7_first (c : Dev nD) (t : Fin cfg7.N) (h0 : t.val = 0) :
    cnts7 V c t.val t.isLt = k7_pay5 (iblk7 V c 1 t) k7_pay2 := by
  obtain ⟨n, hn⟩ := t
  cases n with
  | zero => rfl
  | succ n => exact absurd h0 (Nat.succ_ne_zero n)
theorem cnts7_later (c : Dev nD) (t : Fin cfg7.N) (h0 : t.val ≠ 0) :
    cnts7 V c t.val t.isLt = k7_pay5 (iblk7 V c 1 t) (cnts7 V c (t.val - 1) (Nat.lt_of_le_of_lt (Nat.sub_le _ _) t.isLt)) := by
  obtain ⟨n, hn⟩ := t
  cases n with
  | zero => exact absurd rfl h0
  | succ n => rfl

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 4800000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 4 t (idleAt7_4 t hc1) (noFlush7_4 t hc1)]
    rw [sums7_first V c t h0, cnts7_first V c t h0]
    rw [PhiS7_castSucc V c t, PhiS7_zero V c _ _ h0, PhiA7_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply (sound_kernel7_A c Set.univ (grid7.coords t) hc0 hc1 _ _ _ _ _ _ _ _ _ _ _ _ _ _ (iblk7 V c 0 t) (iblk7 V c 1 t) (iblk7 V c 2 t) (iblk7 V c 3 t) ((dat7 V c).before 4 t d4) _)
    iframe H0 H1 H2 H3 H4 HS0 HS1
    iintro ⟨H0, H1, H2, H3, H4, HS0, HS1⟩
    iframe
    iexists _; iexact H4
  · have hc0 : ¬cond7_0 (grid7.coords t) := fun h => h0 ((hcond7_0 t).mp h)
    rw [sums7_later V c t h0, cnts7_later V c t h0]
    rw [PhiS7_castSucc V c t, PhiS7_pos V c _ _ h0]
    by_cases h9 : t.val = 9
    · have hc1 : cond7_1 (grid7.coords t) := (hcond7_1 t).mpr h9
      rw [show (dat7 V c).leavesExact 4 t = owns (c : Thread nD τ) (st7_4 t) fullShare ((dat7 V c).after 4 t) from by
        unfold Dat.leavesExact; rw [liveAt7_4 t hc1], after7_4]
      unfold out7_4
      rw [sums7_later V c t h0, cnts7_later V c t h0]
      iintro ⟨⟨⟨HS0, HS1, Hr⟩, Hg⟩, Ho, ⟨%d0, H0⟩, ⟨%d1, H1⟩, ⟨%d2, H2⟩, ⟨%d3, H3⟩, ⟨%d4, H4⟩⟩
      iapply (sound_kernel7_C c Set.univ (grid7.coords t) hc0 hc1 _ _ _ _ _ _ _ _ _ _ _ _ _ _ (iblk7 V c 0 t) (iblk7 V c 1 t) (iblk7 V c 2 t) (iblk7 V c 3 t) _ _ _)
      iframe H0 H1 H2 H3 HS0 HS1
      isplitl [H4]; · iexists _; iexact H4
      iintro ⟨H0, H1, H2, H3, H4, HS0, HS1⟩
      iframe
    · have hc1 : ¬cond7_1 (grid7.coords t) := fun h => h9 ((hcond7_1 t).mp h)
      rw [Dat.leavesExact_idle (dat7 V c) 4 t (idleAt7_4 t hc1) (noFlush7_4 t hc1)]
      iintro ⟨⟨⟨HS0, HS1, Hr⟩, Hg⟩, Ho, ⟨%d0, H0⟩, ⟨%d1, H1⟩, ⟨%d2, H2⟩, ⟨%d3, H3⟩, ⟨%d4, H4⟩⟩
      iapply (sound_kernel7_B c Set.univ (grid7.coords t) hc0 hc1 _ _ _ _ _ _ _ _ _ _ _ _ _ _ (iblk7 V c 0 t) (iblk7 V c 1 t) (iblk7 V c 2 t) (iblk7 V c 3 t) ((dat7 V c).before 4 t d4) _ _ _)
      iframe H0 H1 H2 H3 H4 HS0 HS1
      iintro ⟨H0, H1, H2, H3, H4, HS0, HS1⟩
      iframe
      iexists _; iexact H4

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem hout7 (c : Dev nD) : (dat7 V c).Φ (Fin.last cfg7.N) ⊢ Pipeline.ΦA spec7 c := by
  have hN : cfg7.N = 10 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨HS0, HS1, Hr⟩, Hg⟩
  isplitl [HS0 HS1 Hr]
  · isplitl [HS0 HS1]
    · isplitl [HS0]
      · iexists _; iexact HS0
      iexists _; iexact HS1
    iexact Hr
  iexact Hg

end Cert.KernelIdeal.Hand

end
-- ==== Proof.KI.Run.lean ====
import proofs.«431294_j88802743812362_2_alg».proof.Proof.Gen.KernelIdeal.Regions
import proofs.«431294_j88802743812362_2_alg».proof.Proof.KI.Reg0
import proofs.«431294_j88802743812362_2_alg».proof.Proof.KI.Reg1
import proofs.«431294_j88802743812362_2_alg».proof.Proof.KI.Reg2
import proofs.«431294_j88802743812362_2_alg».proof.Proof.KI.Reg3
import proofs.«431294_j88802743812362_2_alg».proof.Proof.KI.Reg4
import proofs.«431294_j88802743812362_2_alg».proof.Proof.KI.Reg5
import proofs.«431294_j88802743812362_2_alg».proof.Proof.KI.Reg6
import proofs.«431294_j88802743812362_2_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- The contents after region `p`: its arrays at their final contents, every other buffer as before. -/
def exitW (p : Fin 8) (d : (c : Dev nD) → Dat τ (Elt F) Unit ℕ (UR sig nD τ) ℕ (cfgs p) c)
    (W : Dev nD → Valuation τ sig (Elt F)) : Dev nD → Valuation τ sig (Elt F) := fun c =>
  Pipeline.withArrays (cfgs p).spec c (W c) fun w => (d c).arrAt w (cfgs p).N

theorem exitW_arr {p : Fin 8} (launch : Pipeline.LaunchFacts (nD := nD) (τ := τ) cfgs p)
    (d : (c : Dev nD) → Dat τ (Elt F) Unit ℕ (UR sig nD τ) ℕ (cfgs p) c) (W : Dev nD → Valuation τ sig (Elt F))
    (c : Dev nD) (w : Fin (cfgs p).W) :
    exitW p d W c (Proc.devRef .tc (Pipeline.arrRef (cfgs p).spec w)) = (d c).arrAt w (cfgs p).N :=
  Pipeline.withArrays_arr _ launch.win.arr_inj c _ _ w

/-- An input array ends as it began, so a region changes its output array alone. -/
theorem exitW_keep {p : Fin 8} (launch : Pipeline.LaunchFacts (nD := nD) (τ := τ) cfgs p)
    (d : (c : Dev nD) → Dat τ (Elt F) Unit ℕ (UR sig nD τ) ℕ (cfgs p) c) (W : Dev nD → Valuation τ sig (Elt F))
    (hA : ∀ c w, (d c).A w = W c (Pipeline.arrRef (cfgs p).spec w)) (out : Ref sig .tc)
    (hin : ∀ w : Fin (cfgs p).W, Pipeline.arrRef (cfgs p).spec w ≠ out → ((cfgs p).win w).isOut = false)
    (c : Dev nD) (b : Ref sig .tc) (hb : b ∉ ([out] : List (Ref sig .tc))) :
    exitW p d W c (Proc.devRef .tc b) = W c (Proc.devRef .tc b) := by
  by_cases h : ∀ w, Pipeline.arrRef (cfgs p).spec w ≠ b
  · exact Pipeline.withArrays_of_ne _ c _ _ b h
  · obtain ⟨w, hw⟩ := Classical.not_forall.mp h
    obtain rfl : Pipeline.arrRef (cfgs p).spec w = b := Classical.not_not.mp hw
    exact (exitW_arr launch d W c w).trans
      (((d c).arrAt_in w (hin w fun e => hb (List.mem_singleton.mpr e)) _).trans (hA c w))

set_option backward.isDefEq.respectTransparency.types false in
/-- Region `p` as a segment of @main: entered with every buffer at `W`, left with every buffer at `exitW`. -/
def regOf (pd : (p : Fin 8) → (c : Dev nD) → Dat τ (Elt F) Unit ℕ (UR sig nD τ) ℕ (cfgs p) c) (p : Fin 8)
    (launch : Pipeline.LaunchFacts (nD := nD) (τ := τ) cfgs p) (W : Dev nD → Valuation τ sig (Elt F))
    (hbody : ∀ c, BodyObligation (pd p c) (defs₀ (F := F)) Variants.none () Set.univ)
    (hA : ∀ c w, (pd p c).A w = W c (Pipeline.arrRef (cfgs p).spec w))
    (hd : ∀ c, (pd p c).q = (fun _ => fullShare) ∧ (pd p c).owed = (fun _ => 0) ∧ (pd p c).recorded = fun _ => Set.univ)
    (hin : ∀ c, Pipeline.ΦA (cfgs p).spec c ⊢ (pd p c).Φ 0)
    (hout : ∀ c, (pd p c).Φ (Fin.last (cfgs p).N) ⊢ Pipeline.ΦA (cfgs p).spec c) :
    Pipeline.RegionSeg (pcfgs (F := F)) adm pd () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p fun c t => congrFun (hd c).2.1 t
  pre c := iprop(StableHlo.held (c : Thread nD τ) (Pipeline.ucRefs τ sig) (W c) ∗ R c)
  post c := iprop(StableHlo.held (c : Thread nD τ) (Pipeline.ucRefs τ sig) (exitW p (pd p) W c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => W c b)
  hentry c := by
    rw [Pipeline.ownSems0_none]
    have hsplit := Pipeline.arrays_of_unscopedBufs (p := p) (pcfgs (F := F)) adm pd launch.win launch.arr_whole c
      ((pd p c).share_full fun w => congrFun (hd c).1 w) (fun b => W c b) (hA c)
    rw [Pipeline.unscopedBufs_held] at hsplit
    have h0 : (pd p c).owed 0 = 0 := congrFun (hd c).2.1 0
    have hr : (pd p c).recorded 0 = Set.univ := congrFun (hd c).2.2 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0, hr]
      icases HO with ⟨%W', HO⟩; iexists W'; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full fun w => congrFun (hd c).1 w)
      (fun b => W c b) (fun b => exitW p (pd p) W c b) ((pd p c).arrAt · (cfgs p).N)
      (fun w => (exitW_arr launch (pd p) W c w).symm)
      (fun b hb => Pipeline.withArrays_of_ne _ c _ _ b fun w e => hb (Finset.mem_image.mpr ⟨w, Finset.mem_univ _, e⟩))
    rw [Pipeline.unscopedBufs_held] at hjoin
    have hN : (pd p c).owed (Fin.last (cfgs p).N) = 0 := congrFun (hd c).2.1 _
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hN]
    icases HO with ⟨%W', -, HO⟩; iexists W'; iexact HO

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := exitW 0 (dat0 (V1 m ρ)) (W1 m ρ)
theorem W2_out (c : Dev nD) : W2 m ρ c (Proc.devRef .tc main_v12) = (dat0 (V1 m ρ) c).arrAt 2 cfg0.N :=
  exitW_arr launch0 _ _ c 2
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 : Dev nD → Valuation τ sig (Elt F) := exitW 1 (dat1 (V3 m ρ)) (W3 m ρ)
theorem W4_out (c : Dev nD) : W4 m ρ c (Proc.devRef .tc main_v43) = (dat1 (V3 m ρ) c).arrAt 4 cfg1.N :=
  exitW_arr launch1 _ _ c 4
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 : Dev nD → Valuation τ sig (Elt F) := exitW 2 (dat2 (V5 m ρ)) (W5 m ρ)
theorem W6_out (c : Dev nD) : W6 m ρ c (Proc.devRef .tc main_v45) = (dat2 (V5 m ρ) c).arrAt 3 cfg2.N :=
  exitW_arr launch2 _ _ c 3
abbrev V6 : (c : Dev nD) → (b : Ref sig .tc) → Buf (Elt F) ((c : Thread nD τ).loc b) := fun c b => W6 m ρ c b
def W7 : Dev nD → Valuation τ sig (Elt F) := exitW 3 (dat3 (V6 m ρ)) (W6 m ρ)
theorem W7_out (c : Dev nD) : W7 m ρ c (Proc.devRef .tc main_v46) = (dat3 (V6 m ρ) c).arrAt 2 cfg3.N :=
  exitW_arr launch3 _ _ c 2
abbrev W8 : Dev nD → Valuation τ sig (Elt F) := fun c => StableHlo.after hostOps4 (W7 m ρ c)
abbrev V8 : (c : Dev nD) → (b : Ref sig .tc) → Buf (Elt F) ((c : Thread nD τ).loc b) := fun c b => W8 m ρ c b
def W9 : Dev nD → Valuation τ sig (Elt F) := exitW 4 (dat4 (V8 m ρ)) (W8 m ρ)
theorem W9_out (c : Dev nD) : W9 m ρ c (Proc.devRef .tc main_v77) = (dat4 (V8 m ρ) c).arrAt 4 cfg4.N :=
  exitW_arr launch4 _ _ c 4
abbrev V9 : (c : Dev nD) → (b : Ref sig .tc) → Buf (Elt F) ((c : Thread nD τ).loc b) := fun c b => W9 m ρ c b
def W10 : Dev nD → Valuation τ sig (Elt F) := exitW 5 (dat5 (V9 m ρ)) (W9 m ρ)
theorem W10_out (c : Dev nD) : W10 m ρ c (Proc.devRef .tc main_v78) = (dat5 (V9 m ρ) c).arrAt 2 cfg5.N :=
  exitW_arr launch5 _ _ c 2
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
def W12 : Dev nD → Valuation τ sig (Elt F) := exitW 6 (dat6 (V11 m ρ)) (W11 m ρ)
theorem W12_out (c : Dev nD) : W12 m ρ c (Proc.devRef .tc main_v109) = (dat6 (V11 m ρ) c).arrAt 4 cfg6.N :=
  exitW_arr launch6 _ _ c 4
abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
def W14 : Dev nD → Valuation τ sig (Elt F) := exitW 7 (dat7 (V13 m ρ)) (W13 m ρ)
theorem W14_out (c : Dev nD) : W14 m ρ c (Proc.devRef .tc main_v112) = (dat7 (V13 m ρ) c).arrAt 4 cfg7.N :=
  exitW_arr launch7 _ _ c 4

def pdats : (p : Fin 8) → (c : Dev nD) → Dat τ (Elt F) Unit ℕ (UR sig nD τ) ℕ (cfgs p) c
  | ⟨0, _⟩ => dat0 (V1 m ρ)
  | ⟨1, _⟩ => dat1 (V3 m ρ)
  | ⟨2, _⟩ => dat2 (V5 m ρ)
  | ⟨3, _⟩ => dat3 (V6 m ρ)
  | ⟨4, _⟩ => dat4 (V8 m ρ)
  | ⟨5, _⟩ => dat5 (V9 m ρ)
  | ⟨6, _⟩ => dat6 (V11 m ρ)
  | ⟨7, _⟩ => dat7 (V13 m ρ)

/-- The contents at the boundary after `k` items of @main, and what item `k` may write. -/
def Ws : ℕ → Dev nD → Valuation τ sig (Elt F)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | _ => W14 m ρ
noncomputable def wr : ℕ → List (Ref sig .tc)
  | 0 => hostOps0_W
  | 1 => [main_v12]
  | 2 => hostOps1_W
  | 3 => [main_v43]
  | 4 => hostOps2_W
  | 5 => [main_v45]
  | 6 => [main_v46]
  | 7 => hostOps4_W
  | 8 => [main_v77]
  | 9 => [main_v78]
  | 10 => hostOps6_W
  | 11 => [main_v109]
  | 12 => hostOps7_W
  | 13 => [main_v112]
  | _ => []

theorem step_keep (c : Dev nD) (b : Ref sig .tc) : ∀ k, b ∉ wr k → Ws m ρ (k + 1) c (Proc.devRef .tc b) = Ws m ρ k c (Proc.devRef .tc b)
  | 0, h => StableHlo.after_of_writes_sub hostOps0 _ hostOps0_writes h
  | 1, h => exitW_keep launch0 _ _ (fun _ _ => rfl) main_v12 (by decide) c b h
  | 2, h => StableHlo.after_of_writes_sub hostOps1 _ hostOps1_writes h
  | 3, h => exitW_keep launch1 _ _ (fun _ _ => rfl) main_v43 (by decide) c b h
  | 4, h => StableHlo.after_of_writes_sub hostOps2 _ hostOps2_writes h
  | 5, h => exitW_keep launch2 _ _ (fun _ _ => rfl) main_v45 (by decide) c b h
  | 6, h => exitW_keep launch3 _ _ (fun _ _ => rfl) main_v46 (by decide) c b h
  | 7, h => StableHlo.after_of_writes_sub hostOps4 _ hostOps4_writes h
  | 8, h => exitW_keep launch4 _ _ (fun _ _ => rfl) main_v77 (by decide) c b h
  | 9, h => exitW_keep launch5 _ _ (fun _ _ => rfl) main_v78 (by decide) c b h
  | 10, h => StableHlo.after_of_writes_sub hostOps6 _ hostOps6_writes h
  | 11, h => exitW_keep launch6 _ _ (fun _ _ => rfl) main_v109 (by decide) c b h
  | 12, h => StableHlo.after_of_writes_sub hostOps7 _ hostOps7_writes h
  | 13, h => exitW_keep launch7 _ _ (fun _ _ => rfl) main_v112 (by decide) c b h
  | _ + 14, _ => rfl

/-- A buffer that no item between two boundaries writes holds at the later what it held at the earlier. -/
theorem walk (c : Dev nD) (b : Ref sig .tc) (i j : ℕ) (hij : i ≤ j) (hb : ∀ k, k < j → i ≤ k → b ∉ wr k) :
    Ws m ρ j c (Proc.devRef .tc b) = Ws m ρ i c (Proc.devRef .tc b) := by
  induction j, hij using Nat.le_induction with
  | base => rfl
  | succ j hij ih =>
    exact (step_keep m ρ c b j (hb j (Nat.lt_succ_self j) hij)).trans (ih fun k hk => hb k (Nat.lt_succ_of_lt hk))

set_option backward.isDefEq.respectTransparency.types false in
def reg0 := regOf (pdats m ρ) 0 launch0 (W1 m ρ) (body_obligation0 (V1 m ρ)) (fun _ _ => rfl) (fun _ => ⟨rfl, rfl, rfl⟩) (fun _ => .rfl) (fun _ => .rfl)
set_option backward.isDefEq.respectTransparency.types false in
def reg1 := regOf (pdats m ρ) 1 launch1 (W3 m ρ) (body_obligation1 (V3 m ρ)) (fun _ _ => rfl) (fun _ => ⟨rfl, rfl, rfl⟩) (fun _ => .rfl) (fun _ => .rfl)
set_option backward.isDefEq.respectTransparency.types false in
def reg2 := regOf (pdats m ρ) 2 launch2 (W5 m ρ) (body_obligation2 (V5 m ρ)) (fun _ _ => rfl) (fun _ => ⟨rfl, rfl, rfl⟩) (fun _ => .rfl) (fun _ => .rfl)
set_option backward.isDefEq.respectTransparency.types false in
def reg3 := regOf (pdats m ρ) 3 launch3 (W6 m ρ) (body_obligation3 (V6 m ρ)) (fun _ _ => rfl) (fun _ => ⟨rfl, rfl, rfl⟩) (fun _ => .rfl) (fun _ => .rfl)
set_option backward.isDefEq.respectTransparency.types false in
def reg4 := regOf (pdats m ρ) 4 launch4 (W8 m ρ) (body_obligation4 (V8 m ρ)) (fun _ _ => rfl) (fun _ => ⟨rfl, rfl, rfl⟩) (fun _ => .rfl) (fun _ => .rfl)
set_option backward.isDefEq.respectTransparency.types false in
def reg5 := regOf (pdats m ρ) 5 launch5 (W9 m ρ) (body_obligation5 (V9 m ρ)) (fun _ _ => rfl) (fun _ => ⟨rfl, rfl, rfl⟩) (fun _ => .rfl) (fun _ => .rfl)
set_option backward.isDefEq.respectTransparency.types false in
def reg6 := regOf (pdats m ρ) 6 launch6 (W11 m ρ) (body_obligation6 (V11 m ρ)) (fun _ _ => rfl) (fun _ => ⟨rfl, rfl, rfl⟩) (fun _ => .rfl) (fun _ => .rfl)
set_option backward.isDefEq.respectTransparency.types false in
def reg7 := regOf (pdats m ρ) 7 launch7 (W13 m ρ) (body_obligation7 (V13 m ρ)) (fun _ _ => rfl) (fun _ => ⟨rfl, rfl, rfl⟩) (hin7 (V13 m ρ)) (hout7 (V13 m ρ))

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .region (reg5 m ρ),
    .host (hseg hostOps6 hostOps6_sub hostOps6_fresh (W10 m ρ)),
    .region (reg6 m ρ),
    .host (hseg hostOps7 hostOps7_sub hostOps7_fresh (W12 m ρ)),
    .region (reg7 m ρ) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      Prog.lift (.customCall (Pipeline.entry 3) ()),
      StableHlo.seq hostOps4,
      Prog.lift (.customCall (Pipeline.entry 4) ()),
      Prog.lift (.customCall (Pipeline.entry 5) ()),
      StableHlo.seq hostOps6,
      Prog.lift (.customCall (Pipeline.entry 6) ()),
      StableHlo.seq hostOps7,
      Prog.lift (.customCall (Pipeline.entry 7) ()) ] from rfl]
  rfl

set_option backward.isDefEq.respectTransparency.types false in
/-- Every execution of @main terminates without fault, and every final memory holds each buffer at the last boundary's
    contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W14 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨Hh, HSI⟩
      unfold StableHlo.held
      imodintro
      iapply (pointsTo_read_all (Pipeline.ucRefs τ sig) (fun b => (((c : Thread nD τ)).1, b)) (W14 m ρ c) s')
      isplitl [Hh] <;> iassumption)
    (hQ := fun _ h => h)

/-- An unscoped buffer that no item of @main writes ends as launched. -/
theorem kept {s : MemSt nD τ sig (Elt F)}
    (h : ∀ c : Dev nD, ∀ b ∈ Pipeline.ucRefs τ sig, s.mem (((c : Thread nD τ)).1, b) = W14 m ρ c b) (c : Dev nD) (b : Ref sig .tc)
    (hu : ¬ (Proc.devRef .tc b : DevRef τ sig).isScoped) (hb : ∀ k, k < 14 → 0 ≤ k → b ∉ wr k) :
    s.mem ((c.tc : Thread nD τ).loc b) = m ((c.tc : Thread nD τ).loc b) :=
  (h c _ (mem_uc b hu)).trans ((walk m ρ c b 0 14 (Nat.zero_le _) hb).trans rfl)

/-- The frame, at any post that follows from every such buffer ending as launched. -/
theorem frame {Q : PUnit × MemSt nD τ sig (Elt F) → Prop}
    (hQ : ∀ s : MemSt nD τ sig (Elt F), (∀ (c : Dev nD) (b : Ref sig .tc), ¬ (Proc.devRef .tc b : DevRef τ sig).isScoped →
      (∀ k, k < 14 → 0 ≤ k → b ∉ wr k) → s.mem ((c.tc : Thread nD τ).loc b) = m ((c.tc : Thread nD τ).loc b)) → Q (⟨⟩, s)) :
    θ_run defs (onTc (τ := τ) (main (F := F))) ⟨m, fun _ => 0, ρ⟩ Q :=
  (θ_run defs _ _).mono (fun r h => hQ r.2 fun c b => kept m ρ h c b) (run_all m ρ)

end Cert.KernelIdeal.Hand

end
-- ==== Proof.KI.ValPay.lean ====
import proofs.«431294_j88802743812362_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandVal

open Cert.KernelIdeal Cert.KernelIdeal.Gen Idealize.ShloMosaic Idealize.ShloMosaic.ValueIdx Idealize.SL.Sem

open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_c128_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_c128_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_c128_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_c128_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A matrix product into a zero accumulator is, entry by entry, the sum over the contracted axis of 128. -/
theorem matmul_c128_apply (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply dot_S10000x128_S128x64_S10000x64_1_0_0_1_n_n none l r (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_c128_0 _ _
    | ⟨1, _⟩ => exact (lhs_c128_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_c128_0 _ _).trans hk
    | ⟨1, _⟩ => exact rhs_c128_1 _ _)
  rw [el, er]

theorem lhs_c64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_c64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_c64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_c64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The same over a contracted axis of 64. -/
theorem matmul_c64_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_c64_0 _ _
    | ⟨1, _⟩ => exact (lhs_c64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_c64_0 _ _).trans hk
    | ⟨1, _⟩ => exact rhs_c64_1 _ _)
  rw [el, er]

theorem k0_pay1_apply (x : Vec Ideal S10000x128 .f32) (w : Vec Ideal S128x64 .f32) (p : Fin 10000) (q : Fin 64) :
    k0_pay1 (F := Ideal) x w (ix2 p q) = ∑ k : Fin 128, x (ix2 p k) * w (ix2 k q) := by
  unfold k0_pay1
  exact matmul_c128_apply _ _ p q

theorem k1_pay1_apply (agg : Vec Ideal S10000x64 .f32) (deg2 : Vec Ideal S10000x1 .f32) (h0 : Vec Ideal S10000x64 .f32)
    (b : Vec Ideal S1x64 .f32) (p : Fin 10000) (q : Fin 64) :
    k1_pay1 (F := Ideal) agg deg2 h0 b (ix2 p q)
      = max (agg (ix2 p q) + deg2 (ix2 p (0 : Fin 1)) * h0 (ix2 p q) + b (ix2 (0 : Fin 1) q)) (Ideal.ofBits .f32 0x00000000#32) := by
  unfold k1_pay1
  simp only [shapeCast_self]
  have e1 : broadcastTo S10000x64 deg2 broadcasts_S10000x1_S10000x64 (ix2 p q) = deg2 (ix2 p (0 : Fin 1)) :=
    broadcastTo_a1_ab_apply deg2 _ p q
  have e2 : broadcastTo S10000x64 b broadcasts_S1x64_S10000x64 (ix2 p q) = b (ix2 (0 : Fin 1) q) :=
    broadcastTo_1b_ab_apply b _ p q
  show max (agg (ix2 p q) + broadcastTo S10000x64 deg2 broadcasts_S10000x1_S10000x64 (ix2 p q) * h0 (ix2 p q)
      + broadcastTo S10000x64 b broadcasts_S1x64_S10000x64 (ix2 p q)) (Ideal.ofBits .f32 0x00000000#32) = _
  rw [e1, e2]

theorem k2_pay1_apply (x : Vec Ideal S10000x64 .f32) (w : Vec Ideal S64x64 .f32) (b : Vec Ideal S1x64 .f32)
    (p : Fin 10000) (q : Fin 64) :
    k2_pay1 (F := Ideal) x w b (ix2 p q)
      = max ((∑ k : Fin 64, x (ix2 p k) * w (ix2 k q)) + b (ix2 (0 : Fin 1) q)) (Ideal.ofBits .f32 0x00000000#32) := by
  unfold k2_pay1
  simp only [shapeCast_self]
  have e1 := matmul_c64_apply (truncf .bf16 x bitsLt_bf16_f32) (truncf .bf16 w bitsLt_bf16_f32) p q
  have e2 : broadcastTo S10000x64 b broadcasts_S1x64_S10000x64 (ix2 p q) = b (ix2 (0 : Fin 1) q) :=
    broadcastTo_1b_ab_apply b _ p q
  show max (matmul dot_S10000x64_S64x64_S10000x64_1_0_0_1_n_n none (truncf .bf16 x bitsLt_bf16_f32) (truncf .bf16 w bitsLt_bf16_f32)
      (constant (F := Ideal) S10000x64 .f32 0x00000000#32) (ix2 p q)
      + broadcastTo S10000x64 b broadcasts_S1x64_S10000x64 (ix2 p q)) (Ideal.ofBits .f32 0x00000000#32) = _
  rw [e1, e2]
  rfl

theorem k3_pay1_apply (x : Vec Ideal S10000x64 .f32) (w : Vec Ideal S64x64 .f32) (p : Fin 10000) (q : Fin 64) :
    k3_pay1 (F := Ideal) x w (ix2 p q) = ∑ k : Fin 64, x (ix2 p k) * w (ix2 k q) := by
  unfold k3_pay1
  simp only [shapeCast_self]
  exact matmul_c64_apply _ _ p q

theorem k4_pay1_apply (agg : Vec Ideal S10000x64 .f32) (deg2 : Vec Ideal S10000x1 .f32) (h0 : Vec Ideal S10000x64 .f32)
    (b : Vec Ideal S1x64 .f32) (p : Fin 10000) (q : Fin 64) :
    k4_pay1 (F := Ideal) agg deg2 h0 b (ix2 p q)
      = max (agg (ix2 p q) + deg2 (ix2 p (0 : Fin 1)) * h0 (ix2 p q) + b (ix2 (0 : Fin 1) q)) (Ideal.ofBits .f32 0x00000000#32) :=
  k1_pay1_apply agg deg2 h0 b p q

theorem k5_pay1_apply (x : Vec Ideal S10000x64 .f32) (w : Vec Ideal S64x64 .f32) (p : Fin 10000) (q : Fin 64) :
    k5_pay1 (F := Ideal) x w (ix2 p q) = ∑ k : Fin 64, x (ix2 p k) * w (ix2 k q) :=
  k3_pay1_apply x w p q

theorem k6_pay1_apply (agg : Vec Ideal S10000x64 .f32) (deg2 : Vec Ideal S10000x1 .f32) (h0 : Vec Ideal S10000x64 .f32)
    (b : Vec Ideal S1x64 .f32) (p : Fin 10000) (q : Fin 64) :
    k6_pay1 (F := Ideal) agg deg2 h0 b (ix2 p q)
      = max (agg (ix2 p q) + deg2 (ix2 p (0 : Fin 1)) * h0 (ix2 p q) + b (ix2 (0 : Fin 1) q)) (Ideal.ofBits .f32 0x00000000#32) :=
  k1_pay1_apply agg deg2 h0 b p q

end Cert.KernelIdeal.HandVal
-- ==== Proof.KI.ValA0.lean ====
import proofs.«431294_j88802743812362_2_alg».proof.Proof.KI.Reg0
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff0 : (![0, 0] : Fin 2 → Nat) = fun _ => 0 := funext fun a => by fin_cases a <;> rfl

/-- The matrix product of the two whole arrays, entry by entry a sum over the contracted axis. -/
abbrev prod0 (X : S100000x128.Idx → Elt Ideal .f32) (W : S128x64.Idx → Elt Ideal .f32) : S100000x64.Idx → Elt Ideal .f32 :=
  fun i => ∑ k : Fin 128, X (ix2 (i 0) k) * W (ix2 k (i 1))

theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rowTile0_apply (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → Elt Ideal .f32) (ix2 r k) := by
  obtain ⟨e0, e1, -, -, -, -⟩ := blockIndex0 t
  unfold iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 128 + 1 * k.val = k.val; rw [e1]; omega

theorem weights0_apply (c : Dev nD) (t : Fin cfg0.N) (k : Fin 128) (q : Fin 64) :
    (iblk0 V c 1 t : Vec Ideal S128x64 .f32) (ix2 k q) = (V c main_arg3 : S128x64.Idx → Elt Ideal .f32) (ix2 k q) := by
  obtain ⟨-, -, e2, e3, -, -⟩ := blockIndex0 t
  unfold iblk0
  rw [View.read_apply]
  show V c main_arg3 _ = V c main_arg3 _
  congr 1
  funext a
  apply Fin.ext
  match a with
  | ⟨0, _⟩ => show win0_1.index t 0 * 128 + 1 * k.val = k.val; rw [e2]; omega
  | ⟨1, _⟩ => show win0_1.index t 1 * 64 + 1 * q.val = q.val; rw [e3]; omega

/-- What point `t` stores at an index of its block is the product's entry at the corresponding row of the whole array. -/
theorem written0_at (c : Dev nD) (t : Fin cfg0.N) (j : S10000x64.Idx) :
    k0_pay1 (F := Ideal) (iblk0 V c 0 t) (iblk0 V c 1 t) j
      = prod0 (V c main_arg0) (V c main_arg3) (((cfg0.win 2).blk t).view.emb j) := by
  obtain ⟨p, q, rfl⟩ : ∃ (p : Fin 10000) (q : Fin 64), j = ix2 p q := ⟨j 0, j 1, eq_ix2 j⟩
  obtain ⟨-, -, -, -, e4, e5⟩ := blockIndex0 t
  have hN : cfg0.N = 10 := N_0
  have ht : t.val < 10 := hN ▸ t.isLt
  have hp : p.val < 10000 := p.isLt
  have hi : ((cfg0.win 2).blk t).view.emb (ix2 p q)
      = (ix2 (⟨t.val * 10000 + p.val, by omega⟩ : Fin 100000) q : S100000x64.Idx) := by
    funext a
    apply Fin.ext
    match a with
    | ⟨0, _⟩ => show win0_2.index t 0 * 10000 + 1 * p.val = t.val * 10000 + p.val; rw [e4]; omega
    | ⟨1, _⟩ => show win0_2.index t 1 * 64 + 1 * q.val = q.val; rw [e5]; omega
  refine ((k0_pay1_apply (iblk0 V c 0 t) (iblk0 V c 1 t) p q).trans ?_).trans
    (congrArg (prod0 (V c main_arg0) (V c main_arg3)) hi).symm
  exact Finset.sum_congr rfl fun k _ => by
    rw [rowTile0_apply V c t p k ⟨t.val * 10000 + p.val, by omega⟩ rfl, weights0_apply V c t k q]

theorem written0_eq (c : Dev nD) (t : Fin cfg0.N) :
    (dat0 V c).flushed 2 t = ((cfg0.win 2).blk t).view.read (Elt Ideal) (prod0 (V c main_arg0) (V c main_arg3)) := by
  show (cfg0.win 2).cut (grid0.coords t) ((dat0 V c).after 2 t) = _
  rw [after0_2]
  unfold out0_2
  rw [View.canon_unit_zero zeroOff0]
  simp only [View.ld_unit_zero (S := S10000x128) zeroOff0, View.ld_unit_zero (S := S128x64) zeroOff0]
  funext j
  exact written0_at V c t j

theorem mem_tile0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v12).slice (win0_2.rect t)).set ↔ _
  rw [View.set_slice_whole, Rect.mem_set_unit]
  exact Iff.rfl

/-- Every row of the result lies in exactly one of the ten row tiles. -/
theorem tiles_cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, e4, e5⟩ := blockIndex0 ⟨(i 0).val / 10000, ht⟩
  refine ⟨⟨(i 0).val / 10000, ht⟩, flush0_2 _, ?_⟩
  rw [mem_tile0]
  intro a
  match a with
  | ⟨0, _⟩ =>
    show win0_2.index ⟨(i 0).val / 10000, ht⟩ 0 * 10000 ≤ (i 0).val ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 64 ≤ (i 1).val ∧ (i 1).val < win0_2.index ⟨(i 0).val / 10000, ht⟩ 1 * 64 + 64
    rw [e5]; omega

/-- The ten row tiles assemble the whole product. -/
theorem final0 (c : Dev nD) : (dat0 V c).arrAt 2 cfg0.N = prod0 (V c main_arg0) (V c main_arg3) :=
  (dat0 V c).arrAt_eq_of_cover 2 (prod0 (V c main_arg0) (V c main_arg3)) (fun t _ => written0_eq V c t) tiles_cover0

end Cert.KernelIdeal.HandVal
-- ==== Proof.KI.ValA1.lean ====
import proofs.«431294_j88802743812362_2_alg».proof.Proof.KI.Reg1
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff1 : (![0, 0] : Fin 2 → Nat) = fun _ => 0 := funext fun a => by fin_cases a <;> rfl

/-- Entry by entry: the aggregate plus the degree-scaled features plus the bias, clamped below at zero. -/
abbrev comb1 (A : S100000x64.Idx → Elt Ideal .f32) (D : S100000x1.Idx → Elt Ideal .f32)
    (H : S100000x64.Idx → Elt Ideal .f32) (B : S1x64.Idx → Elt Ideal .f32) : S100000x64.Idx → Elt Ideal .f32 :=
  fun i => max (A i + D (ix2 (i 0) (0 : Fin 1)) * H i + B (ix2 (0 : Fin 1) (i 1))) (Ideal.ofBits .f32 0x00000000#32)

theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem featTile1_apply (c : Dev nD) (t : Fin cfg1.N) (p : Fin 10000) (q : Fin 64) (r : Fin 100000)
    (hr : r.val = t.val * 10000 + p.val) :
    (iblk1 V c 0 t : Vec Ideal S10000x64 .f32) (ix2 p q) = (V c main_v12 : S100000x64.Idx → Elt Ideal .f32) (ix2 r q) := by
  obtain ⟨e0, e1, -⟩ := blockIndex1 t
  unfold iblk1
  rw [View.read_apply]
  show V c main_v12 _ = V c main_v12 _
  congr 1
  funext a
  apply Fin.ext
  match a with
  | ⟨0, _⟩ => show win1_0.index t 0 * 10000 + 1 * p.val = r.val; rw [e0, hr]; omega
  | ⟨1, _⟩ => show win1_0.index t 1 * 64 + 1 * q.val = q.val; rw [e1]; omega

theorem aggTile1_apply (c : Dev nD) (t : Fin cfg1.N) (p : Fin 10000) (q : Fin 64) (r : Fin 100000)
    (hr : r.val = t.val * 10000 + p.val) :
    (iblk1 V c 1 t : Vec Ideal S10000x64 .f32) (ix2 p q) = (V c main_v40 : S100000x64.Idx → Elt Ideal .f32) (ix2 r q) := by
  obtain ⟨-, -, e0, e1, -⟩ := blockIndex1 t
  unfold iblk1
  rw [View.read_apply]
  show V c main_v40 _ = V c main_v40 _
  congr 1
  funext a
  apply Fin.ext
  match a with
  | ⟨0, _⟩ => show win1_1.index t 0 * 10000 + 1 * p.val = r.val; rw [e0, hr]; omega
  | ⟨1, _⟩ => show win1_1.index t 1 * 64 + 1 * q.val = q.val; rw [e1]; omega

theorem degTile1_apply (c : Dev nD) (t : Fin cfg1.N) (p : Fin 10000) (r : Fin 100000)
    (hr : r.val = t.val * 10000 + p.val) :
    (iblk1 V c 2 t : Vec Ideal S10000x1 .f32) (ix2 p (0 : Fin 1)) = (V c main_v41 : S100000x1.Idx → Elt Ideal .f32) (ix2 r (0 : Fin 1)) := by
  obtain ⟨-, -, -, -, e0, e1, -⟩ := blockIndex1 t
  unfold iblk1
  rw [View.read_apply]
  show V c main_v41 _ = V c main_v41 _
  congr 1
  funext a
  apply Fin.ext
  match a with
  | ⟨0, _⟩ => show win1_2.index t 0 * 10000 + 1 * p.val = r.val; rw [e0, hr]; omega
  | ⟨1, _⟩ => show win1_2.index t 1 * 1 + 1 * (0 : Fin 1).val = (0 : Fin 1).val; rw [e1]; rfl

theorem bias1_apply (c : Dev nD) (t : Fin cfg1.N) (q : Fin 64) :
    (iblk1 V c 3 t : Vec Ideal S1x64 .f32) (ix2 (0 : Fin 1) q) = (V c main_v42 : S1x64.Idx → Elt Ideal .f32) (ix2 (0 : Fin 1) q) := by
  obtain ⟨-, -, -, -, -, -, e0, e1, -⟩ := blockIndex1 t
  unfold iblk1
  rw [View.read_apply]
  show V c main_v42 _ = V c main_v42 _
  congr 1
  funext a
  apply Fin.ext
  match a with
  | ⟨0, _⟩ => show win1_3.index t 0 * 1 + 1 * (0 : Fin 1).val = (0 : Fin 1).val; rw [e0]; rfl
  | ⟨1, _⟩ => show win1_3.index t 1 * 64 + 1 * q.val = q.val; rw [e1]; omega

/-- What point `t` stores at an index of its block is the combination's entry at the corresponding row of the whole arrays. -/
theorem written1_at (c : Dev nD) (t : Fin cfg1.N) (j : S10000x64.Idx) :
    k1_pay1 (F := Ideal) (iblk1 V c 1 t) (iblk1 V c 2 t) (iblk1 V c 0 t) (iblk1 V c 3 t) j
      = comb1 (V c main_v40) (V c main_v41) (V c main_v12) (V c main_v42) (((cfg1.win 4).blk t).view.emb j) := by
  obtain ⟨p, q, rfl⟩ : ∃ (p : Fin 10000) (q : Fin 64), j = ix2 p q := ⟨j 0, j 1, eq_ix2 j⟩
  obtain ⟨-, -, -, -, -, -, -, -, e4, e5⟩ := blockIndex1 t
  have hN : cfg1.N = 10 := N_1
  have ht : t.val < 10 := hN ▸ t.isLt
  have hp : p.val < 10000 := p.isLt
  have hi : ((cfg1.win 4).blk t).view.emb (ix2 p q)
      = (ix2 (⟨t.val * 10000 + p.val, by omega⟩ : Fin 100000) q : S100000x64.Idx) := by
    funext a
    apply Fin.ext
    match a with
    | ⟨0, _⟩ => show win1_4.index t 0 * 10000 + 1 * p.val = t.val * 10000 + p.val; rw [e4]; omega
    | ⟨1, _⟩ => show win1_4.index t 1 * 64 + 1 * q.val = q.val; rw [e5]; omega
  refine ((k1_pay1_apply (iblk1 V c 1 t) (iblk1 V c 2 t) (iblk1 V c 0 t) (iblk1 V c 3 t) p q).trans ?_).trans
    (congrArg (comb1 (V c main_v40) (V c main_v41) (V c main_v12) (V c main_v42)) hi).symm
  rw [aggTile1_apply V c t p q ⟨t.val * 10000 + p.val, by omega⟩ rfl,
    degTile1_apply V c t p ⟨t.val * 10000 + p.val, by omega⟩ rfl,
    featTile1_apply V c t p q ⟨t.val * 10000 + p.val, by omega⟩ rfl, bias1_apply V c t q]

theorem written1_eq (c : Dev nD) (t : Fin cfg1.N) :
    (dat1 V c).flushed 4 t = ((cfg1.win 4).blk t).view.read (Elt Ideal)
      (comb1 (V c main_v40) (V c main_v41) (V c main_v12) (V c main_v42)) := by
  show (cfg1.win 4).cut (grid1.coords t) ((dat1 V c).after 4 t) = _
  rw [after1_4]
  unfold out1_4
  rw [View.canon_unit_zero zeroOff1]
  simp only [View.ld_unit_zero (S := S10000x64) zeroOff1, View.ld_unit_zero (S := S10000x1) zeroOff1,
    View.ld_unit_zero (S := S1x64) zeroOff1]
  funext j
  exact written1_at V c t j

theorem mem_tile1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

theorem tiles_cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, -, -, -, -, -, e4, e5⟩ := blockIndex1 ⟨(i 0).val / 10000, ht⟩
  refine ⟨⟨(i 0).val / 10000, ht⟩, flush1_4 _, ?_⟩
  rw [mem_tile1]
  intro a
  match a with
  | ⟨0, _⟩ =>
    show win1_4.index ⟨(i 0).val / 10000, ht⟩ 0 * 10000 ≤ (i 0).val ∧ (i 0).val < win1_4.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win1_4.index ⟨(i 0).val / 10000, ht⟩ 1 * 64 ≤ (i 1).val ∧ (i 1).val < win1_4.index ⟨(i 0).val / 10000, ht⟩ 1 * 64 + 64
    rw [e5]; omega

/-- The ten row tiles assemble the whole combination. -/
theorem final1 (c : Dev nD) : (dat1 V c).arrAt 4 cfg1.N
    = comb1 (V c main_v40) (V c main_v41) (V c main_v12) (V c main_v42) :=
  (dat1 V c).arrAt_eq_of_cover 4 (comb1 (V c main_v40) (V c main_v41) (V c main_v12) (V c main_v42))
    (fun t _ => written1_eq V c t) tiles_cover1

end Cert.KernelIdeal.HandVal
-- ==== Proof.KI.ValA2.lean ====
import proofs.«431294_j88802743812362_2_alg».proof.Proof.KI.Reg2
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff2 : (![0, 0] : Fin 2 → Nat) = fun _ => 0 := funext fun a => by fin_cases a <;> rfl

/-- Entry by entry: the product with the weight plus the bias row, clamped below at zero. -/
abbrev dense2 (X : S100000x64.Idx → Elt Ideal .f32) (W : S64x64.Idx → Elt Ideal .f32) (B : S1x64.Idx → Elt Ideal .f32) :
    S100000x64.Idx → Elt Ideal .f32 :=
  fun i => max ((∑ k : Fin 64, X (ix2 (i 0) k) * W (ix2 k (i 1))) + B (ix2 (0 : Fin 1) (i 1))) (Ideal.ofBits .f32 0x00000000#32)

theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem rowTile2_apply (c : Dev nD) (t : Fin cfg2.N) (p : Fin 10000) (k : Fin 64) (r : Fin 100000)
    (hr : r.val = t.val * 10000 + p.val) :
    (iblk2 V c 0 t : Vec Ideal S10000x64 .f32) (ix2 p k) = (V c main_v43 : S100000x64.Idx → Elt Ideal .f32) (ix2 r k) := by
  obtain ⟨e0, e1, -⟩ := blockIndex2 t
  unfold iblk2
  rw [View.read_apply]
  show V c main_v43 _ = V c main_v43 _
  congr 1
  funext a
  apply Fin.ext
  match a with
  | ⟨0, _⟩ => show win2_0.index t 0 * 10000 + 1 * p.val = r.val; rw [e0, hr]; omega
  | ⟨1, _⟩ => show win2_0.index t 1 * 64 + 1 * k.val = k.val; rw [e1]; omega

theorem weights2_apply (c : Dev nD) (t : Fin cfg2.N) (k : Fin 64) (q : Fin 64) :
    (iblk2 V c 1 t : Vec Ideal S64x64 .f32) (ix2 k q) = (V c main_arg5 : S64x64.Idx → Elt Ideal .f32) (ix2 k q) := by
  obtain ⟨-, -, e2, e3, -⟩ := blockIndex2 t
  unfold iblk2
  rw [View.read_apply]
  show V c main_arg5 _ = V c main_arg5 _
  congr 1
  funext a
  apply Fin.ext
  match a with
  | ⟨0, _⟩ => show win2_1.index t 0 * 64 + 1 * k.val = k.val; rw [e2]; omega
  | ⟨1, _⟩ => show win2_1.index t 1 * 64 + 1 * q.val = q.val; rw [e3]; omega

theorem bias2_apply (c : Dev nD) (t : Fin cfg2.N) (q : Fin 64) :
    (iblk2 V c 2 t : Vec Ideal S1x64 .f32) (ix2 (0 : Fin 1) q) = (V c main_v44 : S1x64.Idx → Elt Ideal .f32) (ix2 (0 : Fin 1) q) := by
  obtain ⟨-, -, -, -, e0, e1, -⟩ := blockIndex2 t
  unfold iblk2
  rw [View.read_apply]
  show V c main_v44 _ = V c main_v44 _
  congr 1
  funext a
  apply Fin.ext
  match a with
  | ⟨0, _⟩ => show win2_2.index t 0 * 1 + 1 * (0 : Fin 1).val = (0 : Fin 1).val; rw [e0]; rfl
  | ⟨1, _⟩ => show win2_2.index t 1 * 64 + 1 * q.val = q.val; rw [e1]; omega

theorem dense2_congr (x : Vec Ideal S10000x64 .f32) (w : Vec Ideal S64x64 .f32) (b : Vec Ideal S1x64 .f32)
    (X : S100000x64.Idx → Elt Ideal .f32) (W : S64x64.Idx → Elt Ideal .f32) (B : S1x64.Idx → Elt Ideal .f32)
    (p : Fin 10000) (q : Fin 64) (r : Fin 100000)
    (hx : ∀ k : Fin 64, x (ix2 p k) = X (ix2 r k)) (hw : ∀ k : Fin 64, w (ix2 k q) = W (ix2 k q))
    (hb : b (ix2 (0 : Fin 1) q) = B (ix2 (0 : Fin 1) q)) :
    max ((∑ k : Fin 64, x (ix2 p k) * w (ix2 k q)) + b (ix2 (0 : Fin 1) q)) (Ideal.ofBits .f32 0x00000000#32)
      = dense2 X W B (ix2 r q) := by
  have hs : (∑ k : Fin 64, x (ix2 p k) * w (ix2 k q)) = ∑ k : Fin 64, X (ix2 r k) * W (ix2 k q) :=
    Finset.sum_congr rfl fun k _ => by rw [hx k, hw k]
  rw [hs, hb]

theorem written2_at (c : Dev nD) (t : Fin cfg2.N) (j : S10000x64.Idx) :
    k2_pay1 (F := Ideal) (iblk2 V c 0 t) (iblk2 V c 1 t) (iblk2 V c 2 t) j
      = dense2 (V c main_v43) (V c main_arg5) (V c main_v44) (((cfg2.win 3).blk t).view.emb j) := by
  obtain ⟨p, q, rfl⟩ : ∃ (p : Fin 10000) (q : Fin 64), j = ix2 p q := ⟨j 0, j 1, eq_ix2 j⟩
  obtain ⟨-, -, -, -, -, -, e4, e5⟩ := blockIndex2 t
  have hN : cfg2.N = 10 := N_2
  have ht : t.val < 10 := hN ▸ t.isLt
  have hp : p.val < 10000 := p.isLt
  have hi : ((cfg2.win 3).blk t).view.emb (ix2 p q)
      = (ix2 (⟨t.val * 10000 + p.val, by omega⟩ : Fin 100000) q : S100000x64.Idx) := by
    funext a
    apply Fin.ext
    match a with
    | ⟨0, _⟩ => show win2_3.index t 0 * 10000 + 1 * p.val = t.val * 10000 + p.val; rw [e4]; omega
    | ⟨1, _⟩ => show win2_3.index t 1 * 64 + 1 * q.val = q.val; rw [e5]; omega
  refine ((k2_pay1_apply (iblk2 V c 0 t) (iblk2 V c 1 t) (iblk2 V c 2 t) p q).trans ?_).trans
    (congrArg (dense2 (V c main_v43) (V c main_arg5) (V c main_v44)) hi).symm
  exact dense2_congr (iblk2 V c 0 t) (iblk2 V c 1 t) (iblk2 V c 2 t) (V c main_v43) (V c main_arg5) (V c main_v44) p q
    ⟨t.val * 10000 + p.val, by omega⟩
    (fun k => rowTile2_apply V c t p k ⟨t.val * 10000 + p.val, by omega⟩ rfl)
    (fun k => weights2_apply V c t k q) (bias2_apply V c t q)

theorem written2_eq (c : Dev nD) (t : Fin cfg2.N) :
    (dat2 V c).flushed 3 t = ((cfg2.win 3).blk t).view.read (Elt Ideal)
      (dense2 (V c main_v43) (V c main_arg5) (V c main_v44)) := by
  show (cfg2.win 3).cut (grid2.coords t) ((dat2 V c).after 3 t) = _
  rw [after2_3]
  unfold out2_3
  rw [View.canon_unit_zero zeroOff2]
  simp only [View.ld_unit_zero (S := S10000x64) zeroOff2, View.ld_unit_zero (S := S64x64) zeroOff2,
    View.ld_unit_zero (S := S1x64) zeroOff2]
  funext j
  exact written2_at V c t j

theorem mem_tile2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v45).slice (win2_3.rect t)).set ↔ _
  rw [View.set_slice_whole, Rect.mem_set_unit]
  exact Iff.rfl

theorem tiles_cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  have ht : (i 0).val / 10000 < cfg2.N := by rw [hN]; omega
  obtain ⟨-, -, -, -, -, -, e4, e5⟩ := blockIndex2 ⟨(i 0).val / 10000, ht⟩
  refine ⟨⟨(i 0).val / 10000, ht⟩, flush2_3 _, ?_⟩
  rw [mem_tile2]
  intro a
  match a with
  | ⟨0, _⟩ =>
    show win2_3.index ⟨(i 0).val / 10000, ht⟩ 0 * 10000 ≤ (i 0).val ∧ (i 0).val < win2_3.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win2_3.index ⟨(i 0).val / 10000, ht⟩ 1 * 64 ≤ (i 1).val ∧ (i 1).val < win2_3.index ⟨(i 0).val / 10000, ht⟩ 1 * 64 + 64
    rw [e5]; omega

/-- The ten row tiles assemble the whole dense layer. -/
theorem final2 (c : Dev nD) : (dat2 V c).arrAt 3 cfg2.N = dense2 (V c main_v43) (V c main_arg5) (V c main_v44) :=
  (dat2 V c).arrAt_eq_of_cover 3 (dense2 (V c main_v43) (V c main_arg5) (V c main_v44))
    (fun t _ => written2_eq V c t) tiles_cover2

end Cert.KernelIdeal.HandVal
-- ==== Proof.KI.ValA3.lean ====
import proofs.«431294_j88802743812362_2_alg».proof.Proof.KI.Reg3
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff3 : (![0, 0] : Fin 2 → Nat) = fun _ => 0 := funext fun a => by fin_cases a <;> rfl

/-- The matrix product of the two whole arrays, entry by entry a sum over the contracted axis. -/
abbrev prod3 (X : S100000x64.Idx → Elt Ideal .f32) (W : S64x64.Idx → Elt Ideal .f32) : S100000x64.Idx → Elt Ideal .f32 :=
  fun i => ∑ k : Fin 64, X (ix2 (i 0) k) * W (ix2 k (i 1))

theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rowTile3_apply (c : Dev nD) (t : Fin cfg3.N) (p : Fin 10000) (k : Fin 64) (r : Fin 100000)
    (hr : r.val = t.val * 10000 + p.val) :
    (iblk3 V c 0 t : Vec Ideal S10000x64 .f32) (ix2 p k) = (V c main_v45 : S100000x64.Idx → Elt Ideal .f32) (ix2 r k) := by
  obtain ⟨e0, e1, -, -, -, -⟩ := blockIndex3 t
  unfold iblk3
  rw [View.read_apply]
  show V c main_v45 _ = V c main_v45 _
  congr 1
  funext a
  apply Fin.ext
  match a with
  | ⟨0, _⟩ => show win3_0.index t 0 * 10000 + 1 * p.val = r.val; rw [e0, hr]; omega
  | ⟨1, _⟩ => show win3_0.index t 1 * 64 + 1 * k.val = k.val; rw [e1]; omega

theorem weights3_apply (c : Dev nD) (t : Fin cfg3.N) (k : Fin 64) (q : Fin 64) :
    (iblk3 V c 1 t : Vec Ideal S64x64 .f32) (ix2 k q) = (V c main_arg7 : S64x64.Idx → Elt Ideal .f32) (ix2 k q) := by
  obtain ⟨-, -, e2, e3, -, -⟩ := blockIndex3 t
  unfold iblk3
  rw [View.read_apply]
  show V c main_arg7 _ = V c main_arg7 _
  congr 1
  funext a
  apply Fin.ext
  match a with
  | ⟨0, _⟩ => show win3_1.index t 0 * 64 + 1 * k.val = k.val; rw [e2]; omega
  | ⟨1, _⟩ => show win3_1.index t 1 * 64 + 1 * q.val = q.val; rw [e3]; omega

/-- What point `t` stores at an index of its block is the product's entry at the corresponding row of the whole array. -/
theorem written3_at (c : Dev nD) (t : Fin cfg3.N) (j : S10000x64.Idx) :
    k3_pay1 (F := Ideal) (iblk3 V c 0 t) (iblk3 V c 1 t) j
      = prod3 (V c main_v45) (V c main_arg7) (((cfg3.win 2).blk t).view.emb j) := by
  obtain ⟨p, q, rfl⟩ : ∃ (p : Fin 10000) (q : Fin 64), j = ix2 p q := ⟨j 0, j 1, eq_ix2 j⟩
  obtain ⟨-, -, -, -, e4, e5⟩ := blockIndex3 t
  have hN : cfg3.N = 10 := N_3
  have ht : t.val < 10 := hN ▸ t.isLt
  have hp : p.val < 10000 := p.isLt
  have hi : ((cfg3.win 2).blk t).view.emb (ix2 p q)
      = (ix2 (⟨t.val * 10000 + p.val, by omega⟩ : Fin 100000) q : S100000x64.Idx) := by
    funext a
    apply Fin.ext
    match a with
    | ⟨0, _⟩ => show win3_2.index t 0 * 10000 + 1 * p.val = t.val * 10000 + p.val; rw [e4]; omega
    | ⟨1, _⟩ => show win3_2.index t 1 * 64 + 1 * q.val = q.val; rw [e5]; omega
  refine ((k3_pay1_apply (iblk3 V c 0 t) (iblk3 V c 1 t) p q).trans ?_).trans
    (congrArg (prod3 (V c main_v45) (V c main_arg7)) hi).symm
  exact Finset.sum_congr rfl fun k _ => by
    rw [rowTile3_apply V c t p k ⟨t.val * 10000 + p.val, by omega⟩ rfl, weights3_apply V c t k q]

theorem written3_eq (c : Dev nD) (t : Fin cfg3.N) :
    (dat3 V c).flushed 2 t = ((cfg3.win 2).blk t).view.read (Elt Ideal) (prod3 (V c main_v45) (V c main_arg7)) := by
  show (cfg3.win 2).cut (grid3.coords t) ((dat3 V c).after 2 t) = _
  rw [after3_2]
  unfold out3_2
  rw [View.canon_unit_zero zeroOff3]
  simp only [View.ld_unit_zero (S := S10000x64) zeroOff3, View.ld_unit_zero (S := S64x64) zeroOff3]
  funext j
  exact written3_at V c t j

theorem mem_tile3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v46).slice (win3_2.rect t)).set ↔ _
  rw [View.set_slice_whole, Rect.mem_set_unit]
  exact Iff.rfl

/-- Every row of the result lies in exactly one of the ten row tiles. -/
theorem tiles_cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, -, e4, e5⟩ := blockIndex3 ⟨(i 0).val / 10000, ht⟩
  refine ⟨⟨(i 0).val / 10000, ht⟩, flush3_2 _, ?_⟩
  rw [mem_tile3]
  intro a
  match a with
  | ⟨0, _⟩ =>
    show win3_2.index ⟨(i 0).val / 10000, ht⟩ 0 * 10000 ≤ (i 0).val ∧ (i 0).val < win3_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ 1 * 64 ≤ (i 1).val ∧ (i 1).val < win3_2.index ⟨(i 0).val / 10000, ht⟩ 1 * 64 + 64
    rw [e5]; omega

/-- The ten row tiles assemble the whole product. -/
theorem final3 (c : Dev nD) : (dat3 V c).arrAt 2 cfg3.N = prod3 (V c main_v45) (V c main_arg7) :=
  (dat3 V c).arrAt_eq_of_cover 2 (prod3 (V c main_v45) (V c main_arg7)) (fun t _ => written3_eq V c t) tiles_cover3

end Cert.KernelIdeal.HandVal
-- ==== Proof.KI.ValA4.lean ====
import proofs.«431294_j88802743812362_2_alg».proof.Proof.KI.Reg4
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff4 : (![0, 0] : Fin 2 → Nat) = fun _ => 0 := funext fun a => by fin_cases a <;> rfl

/-- Entry by entry: the aggregate plus the degree-scaled features plus the bias, clamped below at zero. -/
abbrev comb4 (A : S100000x64.Idx → Elt Ideal .f32) (D : S100000x1.Idx → Elt Ideal .f32)
    (H : S100000x64.Idx → Elt Ideal .f32) (B : S1x64.Idx → Elt Ideal .f32) : S100000x64.Idx → Elt Ideal .f32 :=
  fun i => max (A i + D (ix2 (i 0) (0 : Fin 1)) * H i + B (ix2 (0 : Fin 1) (i 1))) (Ideal.ofBits .f32 0x00000000#32)

theorem blockIndex4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem featTile4_apply (c : Dev nD) (t : Fin cfg4.N) (p : Fin 10000) (q : Fin 64) (r : Fin 100000)
    (hr : r.val = t.val * 10000 + p.val) :
    (iblk4 V c 0 t : Vec Ideal S10000x64 .f32) (ix2 p q) = (V c main_v46 : S100000x64.Idx → Elt Ideal .f32) (ix2 r q) := by
  obtain ⟨e0, e1, -⟩ := blockIndex4 t
  unfold iblk4
  rw [View.read_apply]
  show V c main_v46 _ = V c main_v46 _
  congr 1
  funext a
  apply Fin.ext
  match a with
  | ⟨0, _⟩ => show win4_0.index t 0 * 10000 + 1 * p.val = r.val; rw [e0, hr]; omega
  | ⟨1, _⟩ => show win4_0.index t 1 * 64 + 1 * q.val = q.val; rw [e1]; omega

theorem aggTile4_apply (c : Dev nD) (t : Fin cfg4.N) (p : Fin 10000) (q : Fin 64) (r : Fin 100000)
    (hr : r.val = t.val * 10000 + p.val) :
    (iblk4 V c 1 t : Vec Ideal S10000x64 .f32) (ix2 p q) = (V c main_v74 : S100000x64.Idx → Elt Ideal .f32) (ix2 r q) := by
  obtain ⟨-, -, e0, e1, -⟩ := blockIndex4 t
  unfold iblk4
  rw [View.read_apply]
  show V c main_v74 _ = V c main_v74 _
  congr 1
  funext a
  apply Fin.ext
  match a with
  | ⟨0, _⟩ => show win4_1.index t 0 * 10000 + 1 * p.val = r.val; rw [e0, hr]; omega
  | ⟨1, _⟩ => show win4_1.index t 1 * 64 + 1 * q.val = q.val; rw [e1]; omega

theorem degTile4_apply (c : Dev nD) (t : Fin cfg4.N) (p : Fin 10000) (r : Fin 100000)
    (hr : r.val = t.val * 10000 + p.val) :
    (iblk4 V c 2 t : Vec Ideal S10000x1 .f32) (ix2 p (0 : Fin 1)) = (V c main_v75 : S100000x1.Idx → Elt Ideal .f32) (ix2 r (0 : Fin 1)) := by
  obtain ⟨-, -, -, -, e0, e1, -⟩ := blockIndex4 t
  unfold iblk4
  rw [View.read_apply]
  show V c main_v75 _ = V c main_v75 _
  congr 1
  funext a
  apply Fin.ext
  match a with
  | ⟨0, _⟩ => show win4_2.index t 0 * 10000 + 1 * p.val = r.val; rw [e0, hr]; omega
  | ⟨1, _⟩ => show win4_2.index t 1 * 1 + 1 * (0 : Fin 1).val = (0 : Fin 1).val; rw [e1]; rfl

theorem bias4_apply (c : Dev nD) (t : Fin cfg4.N) (q : Fin 64) :
    (iblk4 V c 3 t : Vec Ideal S1x64 .f32) (ix2 (0 : Fin 1) q) = (V c main_v76 : S1x64.Idx → Elt Ideal .f32) (ix2 (0 : Fin 1) q) := by
  obtain ⟨-, -, -, -, -, -, e0, e1, -⟩ := blockIndex4 t
  unfold iblk4
  rw [View.read_apply]
  show V c main_v76 _ = V c main_v76 _
  congr 1
  funext a
  apply Fin.ext
  match a with
  | ⟨0, _⟩ => show win4_3.index t 0 * 1 + 1 * (0 : Fin 1).val = (0 : Fin 1).val; rw [e0]; rfl
  | ⟨1, _⟩ => show win4_3.index t 1 * 64 + 1 * q.val = q.val; rw [e1]; omega

/-- What point `t` stores at an index of its block is the combination's entry at the corresponding row of the whole arrays. -/
theorem written4_at (c : Dev nD) (t : Fin cfg4.N) (j : S10000x64.Idx) :
    k4_pay1 (F := Ideal) (iblk4 V c 1 t) (iblk4 V c 2 t) (iblk4 V c 0 t) (iblk4 V c 3 t) j
      = comb4 (V c main_v74) (V c main_v75) (V c main_v46) (V c main_v76) (((cfg4.win 4).blk t).view.emb j) := by
  obtain ⟨p, q, rfl⟩ : ∃ (p : Fin 10000) (q : Fin 64), j = ix2 p q := ⟨j 0, j 1, eq_ix2 j⟩
  obtain ⟨-, -, -, -, -, -, -, -, e4, e5⟩ := blockIndex4 t
  have hN : cfg4.N = 10 := N_4
  have ht : t.val < 10 := hN ▸ t.isLt
  have hp : p.val < 10000 := p.isLt
  have hi : ((cfg4.win 4).blk t).view.emb (ix2 p q)
      = (ix2 (⟨t.val * 10000 + p.val, by omega⟩ : Fin 100000) q : S100000x64.Idx) := by
    funext a
    apply Fin.ext
    match a with
    | ⟨0, _⟩ => show win4_4.index t 0 * 10000 + 1 * p.val = t.val * 10000 + p.val; rw [e4]; omega
    | ⟨1, _⟩ => show win4_4.index t 1 * 64 + 1 * q.val = q.val; rw [e5]; omega
  refine ((k4_pay1_apply (iblk4 V c 1 t) (iblk4 V c 2 t) (iblk4 V c 0 t) (iblk4 V c 3 t) p q).trans ?_).trans
    (congrArg (comb4 (V c main_v74) (V c main_v75) (V c main_v46) (V c main_v76)) hi).symm
  rw [aggTile4_apply V c t p q ⟨t.val * 10000 + p.val, by omega⟩ rfl,
    degTile4_apply V c t p ⟨t.val * 10000 + p.val, by omega⟩ rfl,
    featTile4_apply V c t p q ⟨t.val * 10000 + p.val, by omega⟩ rfl, bias4_apply V c t q]

theorem written4_eq (c : Dev nD) (t : Fin cfg4.N) :
    (dat4 V c).flushed 4 t = ((cfg4.win 4).blk t).view.read (Elt Ideal)
      (comb4 (V c main_v74) (V c main_v75) (V c main_v46) (V c main_v76)) := by
  show (cfg4.win 4).cut (grid4.coords t) ((dat4 V c).after 4 t) = _
  rw [after4_4]
  unfold out4_4
  rw [View.canon_unit_zero zeroOff4]
  simp only [View.ld_unit_zero (S := S10000x64) zeroOff4, View.ld_unit_zero (S := S10000x1) zeroOff4,
    View.ld_unit_zero (S := S1x64) zeroOff4]
  funext j
  exact written4_at V c t j

theorem mem_tile4 (t : Fin cfg4.N) (i : S100000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v77).slice (win4_4.rect t)).set ↔ _
  rw [View.set_slice_whole, Rect.mem_set_unit]
  exact Iff.rfl

theorem tiles_cover4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 10 := N_4
  have ht : (i 0).val / 10000 < cfg4.N := by rw [hN]; omega
  obtain ⟨-, -, -, -, -, -, -, -, e4, e5⟩ := blockIndex4 ⟨(i 0).val / 10000, ht⟩
  refine ⟨⟨(i 0).val / 10000, ht⟩, flush4_4 _, ?_⟩
  rw [mem_tile4]
  intro a
  match a with
  | ⟨0, _⟩ =>
    show win4_4.index ⟨(i 0).val / 10000, ht⟩ 0 * 10000 ≤ (i 0).val ∧ (i 0).val < win4_4.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win4_4.index ⟨(i 0).val / 10000, ht⟩ 1 * 64 ≤ (i 1).val ∧ (i 1).val < win4_4.index ⟨(i 0).val / 10000, ht⟩ 1 * 64 + 64
    rw [e5]; omega

/-- The ten row tiles assemble the whole combination. -/
theorem final4 (c : Dev nD) : (dat4 V c).arrAt 4 cfg4.N
    = comb4 (V c main_v74) (V c main_v75) (V c main_v46) (V c main_v76) :=
  (dat4 V c).arrAt_eq_of_cover 4 (comb4 (V c main_v74) (V c main_v75) (V c main_v46) (V c main_v76))
    (fun t _ => written4_eq V c t) tiles_cover4

end Cert.KernelIdeal.HandVal
-- ==== Proof.KI.ValA5.lean ====
import proofs.«431294_j88802743812362_2_alg».proof.Proof.KI.Reg5
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff5 : (![0, 0] : Fin 2 → Nat) = fun _ => 0 := funext fun a => by fin_cases a <;> rfl

/-- The matrix product of the two whole arrays, entry by entry a sum over the contracted axis. -/
abbrev prod5 (X : S100000x64.Idx → Elt Ideal .f32) (W : S64x64.Idx → Elt Ideal .f32) : S100000x64.Idx → Elt Ideal .f32 :=
  fun i => ∑ k : Fin 64, X (ix2 (i 0) k) * W (ix2 k (i 1))

theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem rowTile5_apply (c : Dev nD) (t : Fin cfg5.N) (p : Fin 10000) (k : Fin 64) (r : Fin 100000)
    (hr : r.val = t.val * 10000 + p.val) :
    (iblk5 V c 0 t : Vec Ideal S10000x64 .f32) (ix2 p k) = (V c main_v77 : S100000x64.Idx → Elt Ideal .f32) (ix2 r k) := by
  obtain ⟨e0, e1, -, -, -, -⟩ := blockIndex5 t
  unfold iblk5
  rw [View.read_apply]
  show V c main_v77 _ = V c main_v77 _
  congr 1
  funext a
  apply Fin.ext
  match a with
  | ⟨0, _⟩ => show win5_0.index t 0 * 10000 + 1 * p.val = r.val; rw [e0, hr]; omega
  | ⟨1, _⟩ => show win5_0.index t 1 * 64 + 1 * k.val = k.val; rw [e1]; omega

theorem weights5_apply (c : Dev nD) (t : Fin cfg5.N) (k : Fin 64) (q : Fin 64) :
    (iblk5 V c 1 t : Vec Ideal S64x64 .f32) (ix2 k q) = (V c main_arg9 : S64x64.Idx → Elt Ideal .f32) (ix2 k q) := by
  obtain ⟨-, -, e2, e3, -, -⟩ := blockIndex5 t
  unfold iblk5
  rw [View.read_apply]
  show V c main_arg9 _ = V c main_arg9 _
  congr 1
  funext a
  apply Fin.ext
  match a with
  | ⟨0, _⟩ => show win5_1.index t 0 * 64 + 1 * k.val = k.val; rw [e2]; omega
  | ⟨1, _⟩ => show win5_1.index t 1 * 64 + 1 * q.val = q.val; rw [e3]; omega

/-- What point `t` stores at an index of its block is the product's entry at the corresponding row of the whole array. -/
theorem written5_at (c : Dev nD) (t : Fin cfg5.N) (j : S10000x64.Idx) :
    k5_pay1 (F := Ideal) (iblk5 V c 0 t) (iblk5 V c 1 t) j
      = prod5 (V c main_v77) (V c main_arg9) (((cfg5.win 2).blk t).view.emb j) := by
  obtain ⟨p, q, rfl⟩ : ∃ (p : Fin 10000) (q : Fin 64), j = ix2 p q := ⟨j 0, j 1, eq_ix2 j⟩
  obtain ⟨-, -, -, -, e4, e5⟩ := blockIndex5 t
  have hN : cfg5.N = 10 := N_5
  have ht : t.val < 10 := hN ▸ t.isLt
  have hp : p.val < 10000 := p.isLt
  have hi : ((cfg5.win 2).blk t).view.emb (ix2 p q)
      = (ix2 (⟨t.val * 10000 + p.val, by omega⟩ : Fin 100000) q : S100000x64.Idx) := by
    funext a
    apply Fin.ext
    match a with
    | ⟨0, _⟩ => show win5_2.index t 0 * 10000 + 1 * p.val = t.val * 10000 + p.val; rw [e4]; omega
    | ⟨1, _⟩ => show win5_2.index t 1 * 64 + 1 * q.val = q.val; rw [e5]; omega
  refine ((k5_pay1_apply (iblk5 V c 0 t) (iblk5 V c 1 t) p q).trans ?_).trans
    (congrArg (prod5 (V c main_v77) (V c main_arg9)) hi).symm
  exact Finset.sum_congr rfl fun k _ => by
    rw [rowTile5_apply V c t p k ⟨t.val * 10000 + p.val, by omega⟩ rfl, weights5_apply V c t k q]

theorem written5_eq (c : Dev nD) (t : Fin cfg5.N) :
    (dat5 V c).flushed 2 t = ((cfg5.win 2).blk t).view.read (Elt Ideal) (prod5 (V c main_v77) (V c main_arg9)) := by
  show (cfg5.win 2).cut (grid5.coords t) ((dat5 V c).after 2 t) = _
  rw [after5_2]
  unfold out5_2
  rw [View.canon_unit_zero zeroOff5]
  simp only [View.ld_unit_zero (S := S10000x64) zeroOff5, View.ld_unit_zero (S := S64x64) zeroOff5]
  funext j
  exact written5_at V c t j

theorem mem_tile5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v78).slice (win5_2.rect t)).set ↔ _
  rw [View.set_slice_whole, Rect.mem_set_unit]
  exact Iff.rfl

/-- Every row of the result lies in exactly one of the ten row tiles. -/
theorem tiles_cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  have ht : (i 0).val / 10000 < cfg5.N := by rw [hN]; omega
  obtain ⟨-, -, -, -, e4, e5⟩ := blockIndex5 ⟨(i 0).val / 10000, ht⟩
  refine ⟨⟨(i 0).val / 10000, ht⟩, flush5_2 _, ?_⟩
  rw [mem_tile5]
  intro a
  match a with
  | ⟨0, _⟩ =>
    show win5_2.index ⟨(i 0).val / 10000, ht⟩ 0 * 10000 ≤ (i 0).val ∧ (i 0).val < win5_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win5_2.index ⟨(i 0).val / 10000, ht⟩ 1 * 64 ≤ (i 1).val ∧ (i 1).val < win5_2.index ⟨(i 0).val / 10000, ht⟩ 1 * 64 + 64
    rw [e5]; omega

/-- The ten row tiles assemble the whole product. -/
theorem final5 (c : Dev nD) : (dat5 V c).arrAt 2 cfg5.N = prod5 (V c main_v77) (V c main_arg9) :=
  (dat5 V c).arrAt_eq_of_cover 2 (prod5 (V c main_v77) (V c main_arg9)) (fun t _ => written5_eq V c t) tiles_cover5

end Cert.KernelIdeal.HandVal
-- ==== Proof.KI.ValA6.lean ====
import proofs.«431294_j88802743812362_2_alg».proof.Proof.KI.Reg6
import proofs.«431294_j88802743812362_2_alg».proof.Proof.KI.ValPay
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeroOff6 : (![0, 0] : Fin 2 → Nat) = fun _ => 0 := funext fun a => by fin_cases a <;> rfl

/-- Entry by entry: the aggregate plus the degree-scaled features plus the bias, clamped below at zero. -/
abbrev comb6 (A : S100000x64.Idx → Elt Ideal .f32) (D : S100000x1.Idx → Elt Ideal .f32)
    (H : S100000x64.Idx → Elt Ideal .f32) (B : S1x64.Idx → Elt Ideal .f32) : S100000x64.Idx → Elt Ideal .f32 :=
  fun i => max (A i + D (ix2 (i 0) (0 : Fin 1)) * H i + B (ix2 (0 : Fin 1) (i 1))) (Ideal.ofBits .f32 0x00000000#32)

theorem blockIndex6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

theorem featTile6_apply (c : Dev nD) (t : Fin cfg6.N) (p : Fin 10000) (q : Fin 64) (r : Fin 100000)
    (hr : r.val = t.val * 10000 + p.val) :
    (iblk6 V c 0 t : Vec Ideal S10000x64 .f32) (ix2 p q) = (V c main_v78 : S100000x64.Idx → Elt Ideal .f32) (ix2 r q) := by
  obtain ⟨e0, e1, -⟩ := blockIndex6 t
  unfold iblk6
  rw [View.read_apply]
  show V c main_v78 _ = V c main_v78 _
  congr 1
  funext a
  apply Fin.ext
  match a with
  | ⟨0, _⟩ => show win6_0.index t 0 * 10000 + 1 * p.val = r.val; rw [e0, hr]; omega
  | ⟨1, _⟩ => show win6_0.index t 1 * 64 + 1 * q.val = q.val; rw [e1]; omega

theorem aggTile6_apply (c : Dev nD) (t : Fin cfg6.N) (p : Fin 10000) (q : Fin 64) (r : Fin 100000)
    (hr : r.val = t.val * 10000 + p.val) :
    (iblk6 V c 1 t : Vec Ideal S10000x64 .f32) (ix2 p q) = (V c main_v106 : S100000x64.Idx → Elt Ideal .f32) (ix2 r q) := by
  obtain ⟨-, -, e0, e1, -⟩ := blockIndex6 t
  unfold iblk6
  rw [View.read_apply]
  show V c main_v106 _ = V c main_v106 _
  congr 1
  funext a
  apply Fin.ext
  match a with
  | ⟨0, _⟩ => show win6_1.index t 0 * 10000 + 1 * p.val = r.val; rw [e0, hr]; omega
  | ⟨1, _⟩ => show win6_1.index t 1 * 64 + 1 * q.val = q.val; rw [e1]; omega

theorem degTile6_apply (c : Dev nD) (t : Fin cfg6.N) (p : Fin 10000) (r : Fin 100000)
    (hr : r.val = t.val * 10000 + p.val) :
    (iblk6 V c 2 t : Vec Ideal S10000x1 .f32) (ix2 p (0 : Fin 1)) = (V c main_v107 : S100000x1.Idx → Elt Ideal .f32) (ix2 r (0 : Fin 1)) := by
  obtain ⟨-, -, -, -, e0, e1, -⟩ := blockIndex6 t
  unfold iblk6
  rw [View.read_apply]
  show V c main_v107 _ = V c main_v107 _
  congr 1
  funext a
  apply Fin.ext
  match a with
  | ⟨0, _⟩ => show win6_2.index t 0 * 10000 + 1 * p.val = r.val; rw [e0, hr]; omega
  | ⟨1, _⟩ => show win6_2.index t 1 * 1 + 1 * (0 : Fin 1).val = (0 : Fin 1).val; rw [e1]; rfl

theorem bias6_apply (c : Dev nD) (t : Fin cfg6.N) (q : Fin 64) :
    (iblk6 V c 3 t : Vec Ideal S1x64 .f32) (ix2 (0 : Fin 1) q) = (V c main_v108 : S1x64.Idx → Elt Ideal .f32) (ix2 (0 : Fin 1) q) := by
  obtain ⟨-, -, -, -, -, -, e0, e1, -⟩ := blockIndex6 t
  unfold iblk6
  rw [View.read_apply]
  show V c main_v108 _ = V c main_v108 _
  congr 1
  funext a
  apply Fin.ext
  match a with
  | ⟨0, _⟩ => show win6_3.index t 0 * 1 + 1 * (0 : Fin 1).val = (0 : Fin 1).val; rw [e0]; rfl
  | ⟨1, _⟩ => show win6_3.index t 1 * 64 + 1 * q.val = q.val; rw [e1]; omega

/-- What point `t` stores at an index of its block is the combination's entry at the corresponding row of the whole arrays. -/
theorem written6_at (c : Dev nD) (t : Fin cfg6.N) (j : S10000x64.Idx) :
    k6_pay1 (F := Ideal) (iblk6 V c 1 t) (iblk6 V c 2 t) (iblk6 V c 0 t) (iblk6 V c 3 t) j
      = comb6 (V c main_v106) (V c main_v107) (V c main_v78) (V c main_v108) (((cfg6.win 4).blk t).view.emb j) := by
  obtain ⟨p, q, rfl⟩ : ∃ (p : Fin 10000) (q : Fin 64), j = ix2 p q := ⟨j 0, j 1, eq_ix2 j⟩
  obtain ⟨-, -, -, -, -, -, -, -, e4, e5⟩ := blockIndex6 t
  have hN : cfg6.N = 10 := N_6
  have ht : t.val < 10 := hN ▸ t.isLt
  have hp : p.val < 10000 := p.isLt
  have hi : ((cfg6.win 4).blk t).view.emb (ix2 p q)
      = (ix2 (⟨t.val * 10000 + p.val, by omega⟩ : Fin 100000) q : S100000x64.Idx) := by
    funext a
    apply Fin.ext
    match a with
    | ⟨0, _⟩ => show win6_4.index t 0 * 10000 + 1 * p.val = t.val * 10000 + p.val; rw [e4]; omega
    | ⟨1, _⟩ => show win6_4.index t 1 * 64 + 1 * q.val = q.val; rw [e5]; omega
  refine ((k6_pay1_apply (iblk6 V c 1 t) (iblk6 V c 2 t) (iblk6 V c 0 t) (iblk6 V c 3 t) p q).trans ?_).trans
    (congrArg (comb6 (V c main_v106) (V c main_v107) (V c main_v78) (V c main_v108)) hi).symm
  rw [aggTile6_apply V c t p q ⟨t.val * 10000 + p.val, by omega⟩ rfl,
    degTile6_apply V c t p ⟨t.val * 10000 + p.val, by omega⟩ rfl,
    featTile6_apply V c t p q ⟨t.val * 10000 + p.val, by omega⟩ rfl, bias6_apply V c t q]

theorem written6_eq (c : Dev nD) (t : Fin cfg6.N) :
    (dat6 V c).flushed 4 t = ((cfg6.win 4).blk t).view.read (Elt Ideal)
      (comb6 (V c main_v106) (V c main_v107) (V c main_v78) (V c main_v108)) := by
  show (cfg6.win 4).cut (grid6.coords t) ((dat6 V c).after 4 t) = _
  rw [after6_4]
  unfold out6_4
  rw [View.canon_unit_zero zeroOff6]
  simp only [View.ld_unit_zero (S := S10000x64) zeroOff6, View.ld_unit_zero (S := S10000x1) zeroOff6,
    View.ld_unit_zero (S := S1x64) zeroOff6]
  funext j
  exact written6_at V c t j

theorem mem_tile6 (t : Fin cfg6.N) (i : S100000x64.Idx) :
    i ∈ ((cfg6.win 4).blk t).view.set ↔ ∀ a : Fin 2, win6_4.index t a * S10000x64.size a ≤ (i a).val ∧ (i a).val < win6_4.index t a * S10000x64.size a + S10000x64.size a := by
  show i ∈ ((View.whole main_v109).slice (win6_4.rect t)).set ↔ _
  rw [View.set_slice_whole, Rect.mem_set_unit]
  exact Iff.rfl

theorem tiles_cover6 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 10 := N_6
  have ht : (i 0).val / 10000 < cfg6.N := by rw [hN]; omega
  obtain ⟨-, -, -, -, -, -, -, -, e4, e5⟩ := blockIndex6 ⟨(i 0).val / 10000, ht⟩
  refine ⟨⟨(i 0).val / 10000, ht⟩, flush6_4 _, ?_⟩
  rw [mem_tile6]
  intro a
  match a with
  | ⟨0, _⟩ =>
    show win6_4.index ⟨(i 0).val / 10000, ht⟩ 0 * 10000 ≤ (i 0).val ∧ (i 0).val < win6_4.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win6_4.index ⟨(i 0).val / 10000, ht⟩ 1 * 64 ≤ (i 1).val ∧ (i 1).val < win6_4.index ⟨(i 0).val / 10000, ht⟩ 1 * 64 + 64
    rw [e5]; omega

/-- The ten row tiles assemble the whole combination. -/
theorem final6 (c : Dev nD) : (dat6 V c).arrAt 4 cfg6.N
    = comb6 (V c main_v106) (V c main_v107) (V c main_v78) (V c main_v108) :=
  (dat6 V c).arrAt_eq_of_cover 4 (comb6 (V c main_v106) (V c main_v107) (V c main_v78) (V c main_v108))
    (fun t _ => written6_eq V c t) tiles_cover6

end Cert.KernelIdeal.HandVal
-- ==== Proof.KI.Val7Pay.lean ====
import proofs.«431294_j88802743812362_2_alg».proof.Proof.Gen.KernelIdeal.Skeleton
import Idealize.ShloMosaic.Lib.Pipeline.Value
import Idealize.ShloMosaic.Lib.ValueIdx
import Idealize.ShloMosaic.Lib.Affine
import Idealize.ShloMosaic.PureOps.Ideal.Laws
import Idealize.ShloMosaic.PureOps.IdealRules

noncomputable section

namespace Cert.KernelIdeal.HandVal

open Cert.KernelIdeal Cert.KernelIdeal.Gen Idealize.ShloMosaic Idealize.ShloMosaic.ValueIdx
open scoped BigOperators

/-- One when the word is the graph index `g`, zero otherwise. -/
def onehotW (w : BitVec 32) (g : ℕ) : EReal := if w = BitVec.ofNat 32 g then 1 else 0

theorem k7_pay3_apply (v3 : Vec Ideal S10000x1 .i32) (r : Fin 10000) (g : Fin 64) :
    k7_pay3 (F := Ideal) v3 (ix2 r g) = onehotW (v3 (ix2 r 0)) g.val := by
  unfold k7_pay3
  simp only [shapeCast_self]
  rw [truncf_apply, sitofp_apply, extui_apply]
  show FloatOps.sitofp (F := Ideal) .f32 ((IntOp.cmpi .eq (broadcastTo S10000x64 v3 broadcasts_S10000x1_S10000x64 (ix2 r g))
      (iota .tc S10000x64 32 [1] iota_S10000x64_d1_w32 (ix2 r g))).setWidth 32) = _
  rw [iota_single_apply, broadcastTo_apply v3 broadcasts_S10000x1_S10000x64 (ix2 r g) (ix2 r 0)
    (fun a => by match a with | ⟨0, _⟩ => rfl | ⟨1, _⟩ => rfl)]
  show ((((IntOp.cmpi .eq (v3 (ix2 r 0)) (BitVec.ofNat 32 g.val)).setWidth 32).toInt : ℝ) : EReal) = _
  unfold onehotW
  by_cases h : v3 (ix2 r 0) = BitVec.ofNat 32 g.val
  · rw [if_pos h, IntOp.cmpi_eq.mpr h]
    norm_num
  · rw [if_neg h, eq_zero_of_ne_one (fun h1 => h (IntOp.cmpi_eq.mp h1))]
    norm_num

theorem scalar_ofBits_ideal (φ : FTy) (b : BitVec φ.bits) : Scalar.ofBits (F := Ideal) φ b = Ideal.ofBits φ b := rfl

theorem ofBits_one_bf16 : Ideal.ofBits .bf16 0x3F80#16 = 1 := IdealRules.sign_bit.ideal_onePat .bf16

theorem ofBits_one_f32 : Ideal.ofBits .f32 0x3F800000#32 = 1 := IdealRules.sign_bit.ideal_onePat .f32

theorem k7_pay1_apply (i : S64x64.Idx) : k7_pay1 (F := Ideal) i = 0 := by
  unfold k7_pay1
  simp only [shapeCast_self]
  rw [broadcast_apply, scalar_ofBits_ideal, Ideal.ofBits_zero_f32]

theorem k7_pay2_apply (i : S64x1.Idx) : k7_pay2 (F := Ideal) i = 0 := by
  unfold k7_pay2
  simp only [shapeCast_self]
  rw [broadcast_apply, scalar_ofBits_ideal, Ideal.ofBits_zero_f32]

private theorem lhs4_0 (j : S64x64.Idx) (q : dot_S10000x64_S10000x64_S64x64_0_0_1_1_n_n.contr.Idx) : (dot_S10000x64_S10000x64_S64x64_0_0_1_1_n_n.lhsIdx j q 0).val = (q ⟨0, by decide⟩).val :=
  dot_S10000x64_S10000x64_S64x64_0_0_1_1_n_n.lhsIdx_val_of_single rfl j q
private theorem lhs4_1 (j : S64x64.Idx) (q : dot_S10000x64_S10000x64_S64x64_0_0_1_1_n_n.contr.Idx) : (dot_S10000x64_S10000x64_S64x64_0_0_1_1_n_n.lhsIdx j q 1).val = (j 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
private theorem rhs4_0 (j : S64x64.Idx) (q : dot_S10000x64_S10000x64_S64x64_0_0_1_1_n_n.contr.Idx) : (dot_S10000x64_S10000x64_S64x64_0_0_1_1_n_n.rhsIdx j q 0).val = (q ⟨0, by decide⟩).val :=
  dot_S10000x64_S10000x64_S64x64_0_0_1_1_n_n.rhsIdx_val_of_single rfl j q
private theorem rhs4_1 (j : S64x64.Idx) (q : dot_S10000x64_S10000x64_S64x64_0_0_1_1_n_n.contr.Idx) : (dot_S10000x64_S10000x64_S64x64_0_0_1_1_n_n.rhsIdx j q 1).val = (j 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

theorem k7_pay4_apply (v3 : Vec Ideal S10000x1 .i32) (v11 : Vec Ideal S10000x64 .f32) (v15 : Vec Ideal S64x64 .f32) (g d : Fin 64) :
    k7_pay4 (F := Ideal) v3 v11 v15 (ix2 g d)
      = v15 (ix2 g d) + ∑ r : Fin 10000, onehotW (v3 (ix2 r 0)) g.val * v11 (ix2 r d) := by
  unfold k7_pay4
  simp only [shapeCast_self, matmul]
  rw [addf_apply, Ideal.matmul_constant_zero_apply, ← Equiv.sum_comp (contrEquiv1 dot_S10000x64_S10000x64_S64x64_0_0_1_1_n_n 10000 rfl rfl).symm]
  refine congrArg (v15 (ix2 g d) + ·) (Finset.sum_congr rfl fun k _ => ?_)
  have hk := contrEquiv1_symm_val dot_S10000x64_S10000x64_S64x64_0_0_1_1_n_n 10000 rfl rfl k
  have el : dot_S10000x64_S10000x64_S64x64_0_0_1_1_n_n.lhsIdx (ix2 g d) ((contrEquiv1 dot_S10000x64_S10000x64_S64x64_0_0_1_1_n_n 10000 rfl rfl).symm k) = ix2 k g := funext fun a => Fin.ext (by
    match a with
    | ⟨0, _⟩ => exact (lhs4_0 _ _).trans hk
    | ⟨1, _⟩ => exact lhs4_1 _ _)
  have er : dot_S10000x64_S10000x64_S64x64_0_0_1_1_n_n.rhsIdx (ix2 g d) ((contrEquiv1 dot_S10000x64_S10000x64_S64x64_0_0_1_1_n_n 10000 rfl rfl).symm k) = ix2 k d := funext fun a => Fin.ext (by
    match a with
    | ⟨0, _⟩ => exact (rhs4_0 _ _).trans hk
    | ⟨1, _⟩ => exact rhs4_1 _ _)
  rw [el, er, k7_pay3_apply, truncf_apply]

private theorem lhs5_0 (j : S64x1.Idx) (q : dot_S10000x64_S10000x1_S64x1_0_0_1_1_n_n.contr.Idx) : (dot_S10000x64_S10000x1_S64x1_0_0_1_1_n_n.lhsIdx j q 0).val = (q ⟨0, by decide⟩).val :=
  dot_S10000x64_S10000x1_S64x1_0_0_1_1_n_n.lhsIdx_val_of_single rfl j q
private theorem lhs5_1 (j : S64x1.Idx) (q : dot_S10000x64_S10000x1_S64x1_0_0_1_1_n_n.contr.Idx) : (dot_S10000x64_S10000x1_S64x1_0_0_1_1_n_n.lhsIdx j q 1).val = (j 0).val := by
  unfold DotDims.lhsIdx
  rw [dif_neg (show ¬(1 : Fin S10000x64.rank) ∈ dot_S10000x64_S10000x1_S64x1_0_0_1_1_n_n.lhsBatch by decide), dif_pos (show (1 : Fin S10000x64.rank) ∈ dot_S10000x64_S10000x1_S64x1_0_0_1_1_n_n.lhsNonContracting by decide)]
  rfl
private theorem rhs5_0 (j : S64x1.Idx) (q : dot_S10000x64_S10000x1_S64x1_0_0_1_1_n_n.contr.Idx) : (dot_S10000x64_S10000x1_S64x1_0_0_1_1_n_n.rhsIdx j q 0).val = (q ⟨0, by decide⟩).val :=
  dot_S10000x64_S10000x1_S64x1_0_0_1_1_n_n.rhsIdx_val_of_single rfl j q
private theorem rhs5_1 (j : S64x1.Idx) (q : dot_S10000x64_S10000x1_S64x1_0_0_1_1_n_n.contr.Idx) : (dot_S10000x64_S10000x1_S64x1_0_0_1_1_n_n.rhsIdx j q 1).val = (j 1).val := by
  unfold DotDims.rhsIdx
  rw [dif_neg (show ¬(1 : Fin S10000x1.rank) ∈ dot_S10000x64_S10000x1_S64x1_0_0_1_1_n_n.rhsBatch by decide), dif_pos (show (1 : Fin S10000x1.rank) ∈ dot_S10000x64_S10000x1_S64x1_0_0_1_1_n_n.rhsNonContracting by decide)]
  rfl

theorem k7_pay5_apply (v3 : Vec Ideal S10000x1 .i32) (v21 : Vec Ideal S64x1 .f32) (g : Fin 64) :
    k7_pay5 (F := Ideal) v3 v21 (ix2 g 0)
      = v21 (ix2 g 0) + ∑ r : Fin 10000, onehotW (v3 (ix2 r 0)) g.val := by
  unfold k7_pay5
  simp only [shapeCast_self, matmul]
  rw [addf_apply, Ideal.matmul_constant_zero_apply, ← Equiv.sum_comp (contrEquiv1 dot_S10000x64_S10000x1_S64x1_0_0_1_1_n_n 10000 rfl rfl).symm]
  refine congrArg (v21 (ix2 g 0) + ·) (Finset.sum_congr rfl fun k _ => ?_)
  have hk := contrEquiv1_symm_val dot_S10000x64_S10000x1_S64x1_0_0_1_1_n_n 10000 rfl rfl k
  have el : dot_S10000x64_S10000x1_S64x1_0_0_1_1_n_n.lhsIdx (ix2 g 0) ((contrEquiv1 dot_S10000x64_S10000x1_S64x1_0_0_1_1_n_n 10000 rfl rfl).symm k) = ix2 k g := funext fun a => Fin.ext (by
    match a with
    | ⟨0, _⟩ => exact (lhs5_0 _ _).trans hk
    | ⟨1, _⟩ => exact lhs5_1 _ _)
  rw [el, k7_pay3_apply, broadcast_apply, scalar_ofBits_ideal, ofBits_one_bf16, mul_one]

private theorem lhs6_0 (j : S64x1.Idx) (q : dot_S64x64_S64x1_S64x1_1_0_0_1_n_n.contr.Idx) : (dot_S64x64_S64x1_S64x1_1_0_0_1_n_n.lhsIdx j q 0).val = (j 0).val := by
  unfold DotDims.lhsIdx
  rw [dif_neg (show ¬(0 : Fin S64x64.rank) ∈ dot_S64x64_S64x1_S64x1_1_0_0_1_n_n.lhsBatch by decide), dif_pos (show (0 : Fin S64x64.rank) ∈ dot_S64x64_S64x1_S64x1_1_0_0_1_n_n.lhsNonContracting by decide)]
  rfl
private theorem lhs6_1 (j : S64x1.Idx) (q : dot_S64x64_S64x1_S64x1_1_0_0_1_n_n.contr.Idx) : (dot_S64x64_S64x1_S64x1_1_0_0_1_n_n.lhsIdx j q 1).val = (q ⟨0, by decide⟩).val :=
  dot_S64x64_S64x1_S64x1_1_0_0_1_n_n.lhsIdx_val_of_single rfl j q
private theorem rhs6_0 (j : S64x1.Idx) (q : dot_S64x64_S64x1_S64x1_1_0_0_1_n_n.contr.Idx) : (dot_S64x64_S64x1_S64x1_1_0_0_1_n_n.rhsIdx j q 0).val = (q ⟨0, by decide⟩).val :=
  dot_S64x64_S64x1_S64x1_1_0_0_1_n_n.rhsIdx_val_of_single rfl j q
private theorem rhs6_1 (j : S64x1.Idx) (q : dot_S64x64_S64x1_S64x1_1_0_0_1_n_n.contr.Idx) : (dot_S64x64_S64x1_S64x1_1_0_0_1_n_n.rhsIdx j q 1).val = (j 1).val := by
  unfold DotDims.rhsIdx
  rw [dif_neg (show ¬(1 : Fin S64x1.rank) ∈ dot_S64x64_S64x1_S64x1_1_0_0_1_n_n.rhsBatch by decide), dif_pos (show (1 : Fin S64x1.rank) ∈ dot_S64x64_S64x1_S64x1_1_0_0_1_n_n.rhsNonContracting by decide)]
  rfl

theorem k7_pay6_apply (v30 : Vec Ideal S64x1 .f32) (v33 : Vec Ideal S64x64 .f32) (v37 : Vec Ideal S64x1 .f32) (v40 : Vec Ideal S1x1 .f32) (g : Fin 64) :
    k7_pay6 (F := Ideal) v30 v33 v37 v40 (ix2 g 0)
      = (∑ d : Fin 64, Ideal.div (v33 (ix2 g d)) (max (v30 (ix2 g 0)) 1) * v37 (ix2 d 0)) + v40 (ix2 0 0) := by
  unfold k7_pay6
  simp only [shapeCast_self, matmul]
  rw [addf_apply, Ideal.matmul_constant_zero_apply, ← Equiv.sum_comp (contrEquiv1 dot_S64x64_S64x1_S64x1_1_0_0_1_n_n 64 rfl rfl).symm,
    broadcastTo_apply v40 broadcasts_S1x1_S64x1 (ix2 g 0) (ix2 0 0) (fun a => by match a with | ⟨0, _⟩ => rfl | ⟨1, _⟩ => rfl)]
  refine congrArg (· + v40 (ix2 0 0)) (Finset.sum_congr rfl fun k _ => ?_)
  have hk := contrEquiv1_symm_val dot_S64x64_S64x1_S64x1_1_0_0_1_n_n 64 rfl rfl k
  have el : dot_S64x64_S64x1_S64x1_1_0_0_1_n_n.lhsIdx (ix2 g 0) ((contrEquiv1 dot_S64x64_S64x1_S64x1_1_0_0_1_n_n 64 rfl rfl).symm k) = ix2 g k := funext fun a => Fin.ext (by
    match a with
    | ⟨0, _⟩ => exact lhs6_0 _ _
    | ⟨1, _⟩ => exact (lhs6_1 _ _).trans hk)
  have er : dot_S64x64_S64x1_S64x1_1_0_0_1_n_n.rhsIdx (ix2 g 0) ((contrEquiv1 dot_S64x64_S64x1_S64x1_1_0_0_1_n_n 64 rfl rfl).symm k) = ix2 k 0 := funext fun a => Fin.ext (by
    match a with
    | ⟨0, _⟩ => exact (rhs6_0 _ _).trans hk
    | ⟨1, _⟩ => exact rhs6_1 _ _)
  rw [el, er, truncf_apply, truncf_apply, divf_apply,
    broadcastTo_apply _ broadcasts_S64x1_S64x64 (ix2 g k) (ix2 g 0) (fun a => by match a with | ⟨0, _⟩ => rfl | ⟨1, _⟩ => rfl),
    maximumf_apply, broadcast_apply, scalar_ofBits_ideal, ofBits_one_f32]

end Cert.KernelIdeal.HandVal
-- ==== Proof.KI.Val7.lean ====
import proofs.«431294_j88802743812362_2_alg».proof.Proof.KI.Reg7
import proofs.«431294_j88802743812362_2_alg».proof.Proof.KI.Val7Pay
import Idealize.ShloMosaic.Lib.Pipeline.Value
import Idealize.ShloMosaic.Lib.ValueIdx
import Idealize.ShloMosaic.Lib.FinSumWindow
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

section Prefix
variable {R : Type*} [AddCommMonoid R] {N : ℕ}

/-- The sum of `f` over the rows below `m`. -/
def rowsBelow (m : ℕ) (f : Fin N → R) : R := ∑ r : Fin N, if r.val < m then f r else 0

theorem rowsBelow_zero (f : Fin N → R) : rowsBelow 0 f = 0 :=
  Finset.sum_eq_zero fun r _ => if_neg (Nat.not_lt_zero _)

theorem rowsBelow_all (f : Fin N → R) : rowsBelow N f = ∑ r : Fin N, f r :=
  Finset.sum_congr rfl fun r _ => if_pos r.isLt

/-- Adding the next block of `W` rows extends the partial sum from `lo` to `lo + W`. -/
theorem rowsBelow_add_block (lo W : ℕ) (hlo : lo + W ≤ N) (f : Fin N → R) :
    rowsBelow (lo + W) f = rowsBelow lo f + ∑ p : Fin W, f ⟨lo + p.val, by have := p.isLt; omega⟩ := by
  have hw := FinSumWindow.sum_window lo hlo (fun r : Fin N => if lo ≤ r.val ∧ r.val < lo + W then f r else 0)
    (fun P hP => if_neg hP)
  have hb : (∑ p : Fin W, (fun r : Fin N => if lo ≤ r.val ∧ r.val < lo + W then f r else 0) ⟨lo + p.val, by have := p.isLt; omega⟩)
      = ∑ p : Fin W, f ⟨lo + p.val, by have := p.isLt; omega⟩ :=
    Finset.sum_congr rfl fun p _ => if_pos ⟨Nat.le_add_right _ _, by have := p.isLt; show lo + p.val < lo + W; omega⟩
  unfold rowsBelow
  rw [← hb, ← hw, ← Finset.sum_add_distrib]
  refine Finset.sum_congr rfl fun r _ => ?_
  by_cases h1 : r.val < lo
  · rw [if_pos (by omega), if_pos h1, if_neg (by omega), add_zero]
  · by_cases h2 : r.val < lo + W
    · rw [if_pos h2, if_neg h1, if_pos ⟨by omega, h2⟩, zero_add]
    · rw [if_neg h2, if_neg h1, if_neg (by omega), add_zero]

end Prefix

variable (V : (c : Dev nD) → (b : Ref sig .tc) → Buf (Elt Ideal) ((c : Thread nD τ).loc b))

/-- Per graph: the mean of its nodes' rows (the count clamped below at one) times the head's weight, plus the head's bias. -/
abbrev pool7 (H : S100000x64.Idx → Elt Ideal .f32) (B : S100000x1.Idx → BitVec 32) (LW : S64x1.Idx → Elt Ideal .f32)
    (LB : S1x1.Idx → Elt Ideal .f32) : S64x1.Idx → Elt Ideal .f32 :=
  fun i => (∑ d : Fin 64, Ideal.div (∑ r : Fin 100000, onehotW (B (ix2 r 0)) (i 0).val * H (ix2 r d))
      (max (∑ r : Fin 100000, onehotW (B (ix2 r 0)) (i 0).val) 1) * LW (ix2 d 0)) + LB (ix2 0 0)

theorem blockIndex7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

theorem rows7_apply (c : Dev nD) (t : Fin cfg7.N) (p : Fin 10000) (d : Fin 64) (r : Fin 100000)
    (hr : r.val = t.val * 10000 + p.val) :
    (iblk7 V c 0 t : Vec Ideal S10000x64 .f32) (ix2 p d) = (V c main_v109 : S100000x64.Idx → Elt Ideal .f32) (ix2 r d) := by
  obtain ⟨e0, e1, -⟩ := blockIndex7 t
  unfold iblk7
  rw [View.read_apply]
  show V c main_v109 _ = V c main_v109 _
  congr 1
  funext a
  apply Fin.ext
  match a with
  | ⟨0, _⟩ => show win7_0.index t 0 * 10000 + 1 * p.val = r.val; rw [e0, hr]; omega
  | ⟨1, _⟩ => show win7_0.index t 1 * 64 + 1 * d.val = d.val; rw [e1]; omega

theorem ids7_apply (c : Dev nD) (t : Fin cfg7.N) (p : Fin 10000) (r : Fin 100000)
    (hr : r.val = t.val * 10000 + p.val) :
    (iblk7 V c 1 t : Vec Ideal S10000x1 .i32) (ix2 p 0) = (V c main_v110 : S100000x1.Idx → BitVec 32) (ix2 r 0) := by
  obtain ⟨-, -, e0, e1, -⟩ := blockIndex7 t
  unfold iblk7
  rw [View.read_apply]
  show V c main_v110 _ = V c main_v110 _
  congr 1
  funext a
  apply Fin.ext
  match a with
  | ⟨0, _⟩ => show win7_1.index t 0 * 10000 + 1 * p.val = r.val; rw [e0, hr]; omega
  | ⟨1, _⟩ => show win7_1.index t 1 * 1 + 1 * 0 = 0; rw [e1]

theorem linW7_apply (c : Dev nD) (t : Fin cfg7.N) (d : Fin 64) :
    (iblk7 V c 2 t : Vec Ideal S64x1 .f32) (ix2 d 0) = (V c main_arg11 : S64x1.Idx → Elt Ideal .f32) (ix2 d 0) := by
  obtain ⟨-, -, -, -, e0, e1, -⟩ := blockIndex7 t
  unfold iblk7
  rw [View.read_apply]
  show V c main_arg11 _ = V c main_arg11 _
  congr 1
  funext a
  apply Fin.ext
  match a with
  | ⟨0, _⟩ => show win7_2.index t 0 * 64 + 1 * d.val = d.val; rw [e0]; omega
  | ⟨1, _⟩ => show win7_2.index t 1 * 1 + 1 * 0 = 0; rw [e1]

theorem linb7_apply (c : Dev nD) (t : Fin cfg7.N) :
    (iblk7 V c 3 t : Vec Ideal S1x1 .f32) (ix2 0 0) = (V c main_v111 : S1x1.Idx → Elt Ideal .f32) (ix2 0 0) := by
  obtain ⟨-, -, -, -, -, -, e0, e1, -⟩ := blockIndex7 t
  unfold iblk7
  rw [View.read_apply]
  show V c main_v111 _ = V c main_v111 _
  congr 1
  funext a
  apply Fin.ext
  match a with
  | ⟨0, _⟩ => show win7_3.index t 0 * 1 + 1 * 0 = 0; rw [e0]
  | ⟨1, _⟩ => show win7_3.index t 1 * 1 + 1 * 0 = 0; rw [e1]

/-- After `n + 1` tiles the sum accumulator holds, per graph and feature, the sum over the rows below `10000 (n + 1)` whose graph it is. -/
theorem sums7_apply (c : Dev nD) (n : ℕ) (hn : n < cfg7.N) (g d : Fin 64) :
    sums7 V c n hn (ix2 g d)
      = rowsBelow ((n + 1) * 10000) (fun r : Fin 100000 =>
          onehotW ((V c main_v110 : S100000x1.Idx → BitVec 32) (ix2 r 0)) g.val
            * (V c main_v109 : S100000x64.Idx → Elt Ideal .f32) (ix2 r d)) := by
  have hN : cfg7.N = 10 := N_7
  induction n with
  | zero =>
    rw [sums7_zero, k7_pay4_apply, k7_pay1_apply, zero_add,
      show (0 + 1) * 10000 = 0 + 10000 from rfl, rowsBelow_add_block 0 10000 (by decide), rowsBelow_zero, zero_add]
    refine Finset.sum_congr rfl fun p _ => ?_
    rw [ids7_apply V c ⟨0, hn⟩ p ⟨0 + p.val, by have := p.isLt; omega⟩ (by show 0 + p.val = 0 * 10000 + p.val; omega),
      rows7_apply V c ⟨0, hn⟩ p d ⟨0 + p.val, by have := p.isLt; omega⟩ (by show 0 + p.val = 0 * 10000 + p.val; omega)]
  | succ n ih =>
    have hn' : n + 1 < 10 := hN ▸ hn
    rw [sums7_succ, k7_pay4_apply, ih (Nat.lt_of_succ_lt hn),
      show (n + 1 + 1) * 10000 = (n + 1) * 10000 + 10000 from by ring,
      rowsBelow_add_block ((n + 1) * 10000) 10000 (by omega)]
    refine congrArg (_ + ·) (Finset.sum_congr rfl fun p _ => ?_)
    rw [ids7_apply V c ⟨n + 1, hn⟩ p ⟨(n + 1) * 10000 + p.val, by have := p.isLt; omega⟩ rfl,
      rows7_apply V c ⟨n + 1, hn⟩ p d ⟨(n + 1) * 10000 + p.val, by have := p.isLt; omega⟩ rfl]

theorem cnts7_apply (c : Dev nD) (n : ℕ) (hn : n < cfg7.N) (g : Fin 64) :
    cnts7 V c n hn (ix2 g 0)
      = rowsBelow ((n + 1) * 10000) (fun r : Fin 100000 =>
          onehotW ((V c main_v110 : S100000x1.Idx → BitVec 32) (ix2 r 0)) g.val) := by
  have hN : cfg7.N = 10 := N_7
  induction n with
  | zero =>
    rw [cnts7_zero, k7_pay5_apply, k7_pay2_apply, zero_add,
      show (0 + 1) * 10000 = 0 + 10000 from rfl, rowsBelow_add_block 0 10000 (by decide), rowsBelow_zero, zero_add]
    refine Finset.sum_congr rfl fun p _ => ?_
    rw [ids7_apply V c ⟨0, hn⟩ p ⟨0 + p.val, by have := p.isLt; omega⟩ (by show 0 + p.val = 0 * 10000 + p.val; omega)]
  | succ n ih =>
    have hn' : n + 1 < 10 := hN ▸ hn
    rw [cnts7_succ, k7_pay5_apply, ih (Nat.lt_of_succ_lt hn),
      show (n + 1 + 1) * 10000 = (n + 1) * 10000 + 10000 from by ring,
      rowsBelow_add_block ((n + 1) * 10000) 10000 (by omega)]
    refine congrArg (_ + ·) (Finset.sum_congr rfl fun p _ => ?_)
    rw [ids7_apply V c ⟨n + 1, hn⟩ p ⟨(n + 1) * 10000 + p.val, by have := p.isLt; omega⟩ rfl]

theorem written7_at (c : Dev nD) (t : Fin cfg7.N) (ht : t.val = 9) (j : S64x1.Idx) :
    out7_4 V c t.val t.isLt j
      = pool7 (V c main_v109) (V c main_v110) (V c main_arg11) (V c main_v111) (((cfg7.win 4).blk t).view.emb j) := by
  obtain ⟨g, z, rfl⟩ : ∃ (g : Fin 64) (z : Fin 1), j = ix2 g z := ⟨j 0, j 1, eq_ix2 j⟩
  obtain rfl : z = 0 := Subsingleton.elim _ _
  obtain ⟨-, -, -, -, -, -, -, -, e0, e1⟩ := blockIndex7 t
  have hi : ((cfg7.win 4).blk t).view.emb (ix2 g 0) = (ix2 g 0 : S64x1.Idx) := by
    funext a
    apply Fin.ext
    match a with
    | ⟨0, _⟩ => show win7_4.index t 0 * 64 + 1 * g.val = g.val; rw [e0]; omega
    | ⟨1, _⟩ => show win7_4.index t 1 * 1 + 1 * 0 = 0; rw [e1]
  have hall : (t.val + 1) * 10000 = 100000 := by rw [ht]
  rw [hi]
  unfold out7_4
  rw [k7_pay6_apply, cnts7_apply, hall, rowsBelow_all, linb7_apply]
  refine congrArg (· + (V c main_v111 : S1x1.Idx → Elt Ideal .f32) (ix2 0 0)) (Finset.sum_congr rfl fun d _ => ?_)
  rw [sums7_apply, hall, rowsBelow_all, linW7_apply]

theorem written7_eq (c : Dev nD) (t : Fin cfg7.N) (hf : (cfg7.win 4).flush t = true) :
    (dat7 V c).flushed 4 t
      = ((cfg7.win 4).blk t).view.read (Elt Ideal) (pool7 (V c main_v109) (V c main_v110) (V c main_arg11) (V c main_v111)) := by
  have ht : t.val = 9 := by
    have h9 := (flush7_4 t).mp hf
    have hlt := t.isLt
    have hN : cfg7.N = 10 := N_7
    omega
  show (cfg7.win 4).cut (grid7.coords t) ((dat7 V c).after 4 t) = _
  rw [after7_4]
  funext j
  exact written7_at V c t ht j

theorem mem_tile7 (t : Fin cfg7.N) (i : S64x1.Idx) :
    i ∈ ((cfg7.win 4).blk t).view.set ↔ ∀ a : Fin 2, win7_4.index t a * S64x1.size a ≤ (i a).val ∧ (i a).val < win7_4.index t a * S64x1.size a + S64x1.size a := by
  show i ∈ ((View.whole main_v112).slice (win7_4.rect t)).set ↔ _
  rw [View.set_slice_whole, Rect.mem_set_unit]
  exact Iff.rfl

theorem cover7 (i : S64x1.Idx) :
    ∃ t : Fin cfg7.N, (cfg7.win 4).flush t = true ∧ i ∈ ((cfg7.win 4).blk t).view.set := by
  have hi0 : (i 0).val < 64 := (i 0).isLt
  have hi1 : (i 1).val < 1 := (i 1).isLt
  have hN : cfg7.N = 10 := N_7
  have ht : 9 < cfg7.N := by rw [hN]; decide
  obtain ⟨-, -, -, -, -, -, -, -, e0, e1⟩ := blockIndex7 ⟨9, ht⟩
  refine ⟨⟨9, ht⟩, (flush7_4 _).mpr rfl, ?_⟩
  rw [mem_tile7]
  intro a
  match a with
  | ⟨0, _⟩ =>
    show win7_4.index ⟨9, ht⟩ 0 * 64 ≤ (i 0).val ∧ (i 0).val < win7_4.index ⟨9, ht⟩ 0 * 64 + 64
    rw [e0]; omega
  | ⟨1, _⟩ =>
    show win7_4.index ⟨9, ht⟩ 1 * 1 ≤ (i 1).val ∧ (i 1).val < win7_4.index ⟨9, ht⟩ 1 * 1 + 1
    rw [e1]; omega

/-- Only the last point stores the result block, and by then the accumulators hold the sums and counts over all rows. -/
theorem final7 (c : Dev nD) :
    (dat7 V c).arrAt 4 cfg7.N = pool7 (V c main_v109) (V c main_v110) (V c main_arg11) (V c main_v111) :=
  (dat7 V c).arrAt_eq_of_cover 4 (pool7 (V c main_v109) (V c main_v110) (V c main_arg11) (V c main_v111))
    (fun t hf => written7_eq V c t hf) cover7

end Cert.KernelIdeal.HandVal
-- ==== Proof.KI.Val7Scatter.lean ====
import proofs.«431294_j88802743812362_2_alg».proof.Proof.Gen.ReferenceIdeal.Read
import proofs.«431294_j88802743812362_2_alg».proof.Proof.KI.Val7Pay
import Idealize.ShloMosaic.Lib.ValueIdxRank1

noncomputable section

namespace Cert.KernelIdeal.HandVal

open Idealize.ShloMosaic Idealize.ShloMosaic.ValueIdx
open Cert.ReferenceIdeal (scatter_S64x64_S100000x1_S100000x64_1_0_0_1 scatter_S64_S100000x1_S100000_n_0_0_1)
open scoped BigOperators

theorem rows_start0 (idx : IVec (⟨2, ![100000, 1]⟩ : Shape) 32) (r : Fin 100000) (d' : Fin 64) :
    scatter_S64x64_S100000x1_S100000x64_1_0_0_1.start (ix2 r d') idx 0 = (idx (ix2 r 0)).toInt := by
  unfold ScatterDims.start
  rw [dif_pos (show (0 : Fin 2) ∈ scatter_S64x64_S100000x1_S100000x64_1_0_0_1.scatterDimsToOperandDims by decide)]
  congr 2
  funext b; refine Fin.ext ?_
  match b with
  | ⟨0, _⟩ => rfl
  | ⟨1, _⟩ => rfl
theorem rows_start1 (idx : IVec (⟨2, ![100000, 1]⟩ : Shape) 32) (r : Fin 100000) (d' : Fin 64) :
    scatter_S64x64_S100000x1_S100000x64_1_0_0_1.start (ix2 r d') idx 1 = 0 := by
  unfold ScatterDims.start
  rw [dif_neg (show ¬(1 : Fin 2) ∈ scatter_S64x64_S100000x1_S100000x64_1_0_0_1.scatterDimsToOperandDims by decide)]
theorem rows_window0 (r : Fin 100000) (d' : Fin 64) : scatter_S64x64_S100000x1_S100000x64_1_0_0_1.window (ix2 r d') 0 = 0 := by
  unfold ScatterDims.window
  rw [dif_neg (show ¬(0 : Fin 2) ∈ scatter_S64x64_S100000x1_S100000x64_1_0_0_1.sKept by decide)]
theorem rows_window1 (r : Fin 100000) (d' : Fin 64) : scatter_S64x64_S100000x1_S100000x64_1_0_0_1.window (ix2 r d') 1 = d'.val := by
  unfold ScatterDims.window
  rw [dif_pos (show (1 : Fin 2) ∈ scatter_S64x64_S100000x1_S100000x64_1_0_0_1.sKept by decide)]
  rfl

theorem toInt_eq_lane_iff (w : BitVec 32) (g : ℕ) (hg : g < 64) : w.toInt = (g : ℤ) ↔ w = BitVec.ofNat 32 g := by
  have hof : (BitVec.ofNat 32 g).toInt = (g : ℤ) := by
    rw [BitVec.toInt_eq_toNat_cond, BitVec.toNat_ofNat]
    have : g % 2 ^ 32 = g := Nat.mod_eq_of_lt (by omega)
    rw [this, if_pos (by omega)]
  constructor
  · intro h; exact BitVec.eq_of_toInt_eq (h.trans hof.symm)
  · intro h; rw [h, hof]

theorem rows_resultIdx (idx : IVec (⟨2, ![100000, 1]⟩ : Shape) 32) (r : Fin 100000) (d' g d : Fin 64) :
    scatter_S64x64_S100000x1_S100000x64_1_0_0_1.resultIdx? (ix2 r d') idx = some (ix2 g d) ↔ idx (ix2 r 0) = BitVec.ofNat 32 g.val ∧ d' = d := by
  unfold ScatterDims.resultIdx?
  have hg := g.isLt
  have hd := d.isLt
  have hd' := d'.isLt
  constructor
  · intro h
    split at h
    · rename_i hc
      have e := Option.some.inj h
      have e0 := congrArg (fun f => (f 0).val) e
      have e1 := congrArg (fun f => (f 1).val) e
      simp only [rows_start0, rows_start1, rows_window0, rows_window1] at e0 e1
      have c0 := hc 0
      simp only [rows_start0, rows_window0] at c0
      refine ⟨(toInt_eq_lane_iff _ g.val hg).mp ?_, Fin.ext ?_⟩
      · have : ((ix2 g d : (⟨2, ![64, 64]⟩ : Shape).Idx) 0).val = g.val := rfl
        rw [this] at e0
        omega
      · have : ((ix2 g d : (⟨2, ![64, 64]⟩ : Shape).Idx) 1).val = d.val := rfl
        rw [this] at e1
        omega
    · exact absurd h (by simp)
  · rintro ⟨hw, rfl⟩
    have ht := (toInt_eq_lane_iff _ g.val hg).mpr hw
    have hc : ∀ a : Fin 2, 0 ≤ scatter_S64x64_S100000x1_S100000x64_1_0_0_1.start (ix2 r d') idx a + scatter_S64x64_S100000x1_S100000x64_1_0_0_1.window (ix2 r d') a
        ∧ scatter_S64x64_S100000x1_S100000x64_1_0_0_1.start (ix2 r d') idx a + scatter_S64x64_S100000x1_S100000x64_1_0_0_1.window (ix2 r d') a < (⟨2, ![64, 64]⟩ : Shape).size a := by
      refine Fin.forall_fin_two.mpr ⟨?_, ?_⟩
      · rw [rows_start0, rows_window0, ht]; exact ⟨by omega, by show (g.val : ℤ) + ((0 : ℕ) : ℤ) < ((64 : ℕ) : ℤ); omega⟩
      · rw [rows_start1, rows_window1]; exact ⟨by omega, by show (0 : ℤ) + ((d'.val : ℕ) : ℤ) < ((64 : ℕ) : ℤ); omega⟩
    rw [dif_pos hc]
    congr 1
    funext a; refine Fin.ext ?_
    match a with
    | ⟨0, _⟩ => show (scatter_S64x64_S100000x1_S100000x64_1_0_0_1.start (ix2 r d') idx 0 + scatter_S64x64_S100000x1_S100000x64_1_0_0_1.window (ix2 r d') 0).toNat = g.val; rw [rows_start0, rows_window0, ht]; omega
    | ⟨1, _⟩ => show (scatter_S64x64_S100000x1_S100000x64_1_0_0_1.start (ix2 r d') idx 1 + scatter_S64x64_S100000x1_S100000x64_1_0_0_1.window (ix2 r d') 1).toNat = d'.val; rw [rows_start1, rows_window1]; omega

/-- A scatter-add of rows by graph index is, at graph `g`, the start value plus the sum of the rows whose index is `g`. -/
theorem scatterAdd_rows_apply (x : FVec Ideal (⟨2, ![64, 64]⟩ : Shape) .f32) (idx : IVec (⟨2, ![100000, 1]⟩ : Shape) 32)
    (upd : FVec Ideal (⟨2, ![100000, 64]⟩ : Shape) .f32) (g d : Fin 64) :
    Host.scatterAdd scatter_S64x64_S100000x1_S100000x64_1_0_0_1 x idx upd (ix2 g d)
      = x (ix2 g d) + ∑ r : Fin 100000, onehotW (idx (ix2 r 0)) g.val * upd (ix2 r d) := by
  unfold Host.scatterAdd
  rw [Ideal.hostScatterAdd_def]
  unfold Ideal.hostScatterAdd
  refine congrArg (x (ix2 g d) + ·) ?_
  rw [Finset.sum_filter, sum_idx2]
  refine Finset.sum_congr rfl fun r _ => ?_
  simp only [rows_resultIdx]
  unfold onehotW
  by_cases h : idx (ix2 r 0) = BitVec.ofNat 32 g.val
  · simp only [h, true_and, if_true, one_mul]
    rw [Finset.sum_ite_eq' Finset.univ d (fun d' => upd (ix2 r d'))]
    simp
  · simp [h]

theorem counts_start0 (idx : IVec (⟨2, ![100000, 1]⟩ : Shape) 32) (r : Fin 100000) :
    scatter_S64_S100000x1_S100000_n_0_0_1.start (ix1 r) idx 0 = (idx (ix2 r 0)).toInt := by
  unfold ScatterDims.start
  rw [dif_pos (show (0 : Fin 1) ∈ scatter_S64_S100000x1_S100000_n_0_0_1.scatterDimsToOperandDims by decide)]
  congr 2
  funext b; refine Fin.ext ?_
  match b with
  | ⟨0, _⟩ => rfl
  | ⟨1, _⟩ => rfl
theorem counts_window0 (r : Fin 100000) : scatter_S64_S100000x1_S100000_n_0_0_1.window (ix1 r) 0 = 0 := by
  unfold ScatterDims.window
  rw [dif_neg (show ¬(0 : Fin 1) ∈ scatter_S64_S100000x1_S100000_n_0_0_1.sKept by decide)]

theorem counts_resultIdx (idx : IVec (⟨2, ![100000, 1]⟩ : Shape) 32) (r : Fin 100000) (g : Fin 64) :
    scatter_S64_S100000x1_S100000_n_0_0_1.resultIdx? (ix1 r) idx = some (ix1 g) ↔ idx (ix2 r 0) = BitVec.ofNat 32 g.val := by
  unfold ScatterDims.resultIdx?
  have hg := g.isLt
  constructor
  · intro h
    split at h
    · rename_i hc
      have e := Option.some.inj h
      have e0 := congrArg (fun f => (f 0).val) e
      simp only [counts_start0, counts_window0] at e0
      have c0 := hc 0
      simp only [counts_start0, counts_window0] at c0
      refine (toInt_eq_lane_iff _ g.val hg).mp ?_
      have : ((ix1 g : (⟨1, ![64]⟩ : Shape).Idx) 0).val = g.val := rfl
      rw [this] at e0
      omega
    · exact absurd h (by simp)
  · intro hw
    have ht := (toInt_eq_lane_iff _ g.val hg).mpr hw
    have hc : ∀ a : Fin 1, 0 ≤ scatter_S64_S100000x1_S100000_n_0_0_1.start (ix1 r) idx a + scatter_S64_S100000x1_S100000_n_0_0_1.window (ix1 r) a
        ∧ scatter_S64_S100000x1_S100000_n_0_0_1.start (ix1 r) idx a + scatter_S64_S100000x1_S100000_n_0_0_1.window (ix1 r) a < (⟨1, ![64]⟩ : Shape).size a := by
      intro a
      obtain rfl : a = 0 := Subsingleton.elim _ _
      rw [counts_start0, counts_window0, ht]; exact ⟨by omega, by show (g.val : ℤ) + ((0 : ℕ) : ℤ) < ((64 : ℕ) : ℤ); omega⟩
    rw [dif_pos hc]
    congr 1
    funext a; refine Fin.ext ?_
    obtain rfl : a = 0 := Subsingleton.elim _ _
    show (scatter_S64_S100000x1_S100000_n_0_0_1.start (ix1 r) idx 0 + scatter_S64_S100000x1_S100000_n_0_0_1.window (ix1 r) 0).toNat = g.val
    rw [counts_start0, counts_window0, ht]; omega

/-- The same for counts: at graph `g`, the start value plus the sum of the updates whose index is `g`. -/
theorem scatterAdd_counts_apply (x : FVec Ideal (⟨1, ![64]⟩ : Shape) .f32) (idx : IVec (⟨2, ![100000, 1]⟩ : Shape) 32)
    (upd : FVec Ideal (⟨1, ![100000]⟩ : Shape) .f32) (g : Fin 64) :
    Host.scatterAdd scatter_S64_S100000x1_S100000_n_0_0_1 x idx upd (ix1 g)
      = x (ix1 g) + ∑ r : Fin 100000, onehotW (idx (ix2 r 0)) g.val * upd (ix1 r) := by
  unfold Host.scatterAdd
  rw [Ideal.hostScatterAdd_def]
  unfold Ideal.hostScatterAdd
  refine congrArg (x (ix1 g) + ·) ?_
  rw [Finset.sum_filter, ← Equiv.sum_comp (idxEquiv1 (n := 100000)).symm]
  refine Finset.sum_congr rfl fun r _ => ?_
  show (if scatter_S64_S100000x1_S100000_n_0_0_1.resultIdx? (ix1 r) idx = some (ix1 g) then upd (ix1 r) else 0) = _
  simp only [counts_resultIdx]
  unfold onehotW
  by_cases h : idx (ix2 r 0) = BitVec.ofNat 32 g.val
  · simp [h]
  · simp [h]

end Cert.KernelIdeal.HandVal
-- ==== Proof.KI.Val7Ref.lean ====
import proofs.«431294_j88802743812362_2_alg».proof.Proof.Gen.ReferenceIdeal.Read
import proofs.«431294_j88802743812362_2_alg».proof.Proof.KI.Val7Scatter

noncomputable section

namespace Cert.KernelIdeal.HandVal

open Idealize.ShloMosaic Idealize.ShloMosaic.ValueIdx
open Cert.ReferenceIdeal Cert.ReferenceIdeal.Read
open scoped BigOperators

theorem ref7_ids (x2 : (⟨S100000, .i32⟩ : BufTy).Contents (Elt Ideal)) (r : Fin 100000) : val_main_v131 (F := Ideal) x2 (ix2 r 0) = x2 (ix1 r) := by
  rw [val_main_v131_apply]
  exact congrArg x2 (funext fun a => by match a with | ⟨0, _⟩ => rfl)
theorem ref7_ids' (x2 : (⟨S100000, .i32⟩ : BufTy).Contents (Elt Ideal)) (r : Fin 100000) : val_main_v135 (F := Ideal) x2 (ix2 r 0) = x2 (ix1 r) := by
  rw [val_main_v135_apply]
  exact congrArg x2 (funext fun a => by match a with | ⟨0, _⟩ => rfl)

theorem ref7_sums (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (g d : Fin 64) :
    val_main_v132 (F := Ideal) x0 x1 x2 x3 x4 x5 x6 x7 x8 x9 x10 (ix2 g d) = (∑ r : Fin 100000, onehotW (x2 (ix1 r)) g.val * val_main_v129 (F := Ideal) x0 x1 x3 x4 x5 x6 x7 x8 x9 x10 (ix2 r d)) := by
  unfold val_main_v132
  rw [scatterAdd_rows_apply, val_main_v130_apply, val_main_cst_22_apply, Ideal.ofBits_def, Ideal.ofBits_zero_f32, zero_add]
  exact Finset.sum_congr rfl fun r _ => by rw [ref7_ids]

theorem ref7_counts (x2 : (⟨S100000, .i32⟩ : BufTy).Contents (Elt Ideal)) (g : Fin 64) :
    val_main_v136 (F := Ideal) x2 (ix1 g) = (∑ r : Fin 100000, onehotW (x2 (ix1 r)) g.val) := by
  unfold val_main_v136
  rw [scatterAdd_counts_apply, val_main_v134_apply, val_main_cst_24_apply, Ideal.ofBits_def, Ideal.ofBits_zero_f32, zero_add]
  exact Finset.sum_congr rfl fun r _ => by
    rw [ref7_ids', val_main_v133_apply, val_main_cst_23_apply, Ideal.ofBits_def, ofBits_one_f32, mul_one]

/-- The reference's last stage at graph `g`: segment sums over counts (clamped at one), times the head's weight, plus its bias. -/
theorem ref7_final (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) (g : Fin 64) :
    val_main_v145 (F := Ideal) x0 x1 x2 x3 x4 x5 x6 x7 x8 x9 x10 x11 x12 (ix2 g 0)
      = (∑ d : Fin 64, Ideal.div (∑ r : Fin 100000, onehotW (x2 (ix1 r)) g.val * val_main_v129 (F := Ideal) x0 x1 x3 x4 x5 x6 x7 x8 x9 x10 (ix2 r d)) (max (∑ r : Fin 100000, onehotW (x2 (ix1 r)) g.val) 1) * x11 (ix2 d 0)) + x12 (ix1 0) := by
  rw [val_main_v145_apply, val_main_v142_apply, val_main_v144_apply, val_main_v143_apply, Ideal.addf_def]
  have hb : x12 (idx_main_v143 (idx_main_v144 (ix2 g 0))) = x12 (ix1 0) :=
    congrArg x12 (funext fun a => by match a with | ⟨0, _⟩ => rfl)
  rw [hb]
  refine congrArg (· + x12 (ix1 0)) (Finset.sum_congr rfl fun k _ => ?_)
  have el : lidx_main_v142 (ix2 g 0) k = ix2 g k := funext fun a => by match a with | ⟨0, _⟩ => rfl | ⟨1, _⟩ => rfl
  have er : ridx_main_v142 (ix2 g 0) k = ix2 k 0 := funext fun a => by match a with | ⟨0, _⟩ => rfl | ⟨1, _⟩ => rfl
  have ec : idx_main_v139 (idx_main_v140 (ix2 g k)) = ix1 g := funext fun a => by match a with | ⟨0, _⟩ => rfl
  rw [el, er, val_main_v141_apply, Ideal.hostDivf_def, ref7_sums, val_main_v140_apply, val_main_v139_apply, ec, val_main_v138_apply,
    Ideal.maximumf_def, ref7_counts, val_main_v137_apply, val_main_cst_25_apply, Ideal.ofBits_def, ofBits_one_f32]

theorem ref7_final_of (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal))
    (H : FVec Ideal (⟨2, ![100000, 64]⟩ : Shape) .f32) (hH : val_main_v129 (F := Ideal) x0 x1 x3 x4 x5 x6 x7 x8 x9 x10 = H) (g : Fin 64) :
    val_main_v145 (F := Ideal) x0 x1 x2 x3 x4 x5 x6 x7 x8 x9 x10 x11 x12 (ix2 g 0)
      = (∑ d : Fin 64, Ideal.div (∑ r : Fin 100000, onehotW (x2 (ix1 r)) g.val * H (ix2 r d)) (max (∑ r : Fin 100000, onehotW (x2 (ix1 r)) g.val) 1) * x11 (ix2 d 0)) + x12 (ix1 0) := by
  subst hH
  exact ref7_final x0 x1 x2 x3 x4 x5 x6 x7 x8 x9 x10 x11 x12 g

theorem ix2_row_zero (i : (⟨2, ![64, 1]⟩ : Shape).Idx) : i = ix2 (i 0) 0 := funext fun a => by
  match a with
  | ⟨0, _⟩ => rfl
  | ⟨1, _⟩ => exact Fin.ext (by have h : (i 1).val < 1 := (i 1).isLt; show (i 1).val = 0; omega)

end Cert.KernelIdeal.HandVal

end
-- ==== Proof.KI.BridgeSmall.lean ====
import proofs.«431294_j88802743812362_2_alg».proof.Proof.Gen.ReferenceIdeal.Read
import proofs.«431294_j88802743812362_2_alg».proof.Proof.Gen.KernelIdeal.Launch
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HandVal

open Cert.KernelIdeal Cert.KernelIdeal.Gen
open Idealize.ShloMosaic Idealize.ShloMosaic.TcCoe Idealize.SL.Sem Idealize.ShloMosaic.StableHlo Idealize.ShloMosaic.ValueIdx

variable (V : Valuation τ sig (Elt Ideal))

theorem hostOps0_main_v1 :
    StableHlo.after (hostOps0 (F := Ideal)) V (Proc.devRef .tc main_v1) = Cert.ReferenceIdeal.Read.val_main_v1 (F := Ideal) (V main_arg1) := by
  show StableHlo.after hostOps0 V (Proc.devRef .tc main_v1) = _
  after_results
  rfl

theorem hostOps0_main_v3 :
    StableHlo.after (hostOps0 (F := Ideal)) V (Proc.devRef .tc main_v3) = Cert.ReferenceIdeal.Read.val_main_v3 (F := Ideal) (V main_arg1) := by
  show StableHlo.after hostOps0 V (Proc.devRef .tc main_v3) = _
  after_results
  rfl

/-- The short computations on the edge list before the first region, read off the operations' results. -/
theorem hostOps0_main_v10 :
    StableHlo.after (hostOps0 (F := Ideal)) V (Proc.devRef .tc main_v10) = Cert.ReferenceIdeal.Read.val_main_v10 (F := Ideal) (V main_arg1) := by
  show StableHlo.after hostOps0 V (Proc.devRef .tc main_v10) = _
  after_results
  rfl

theorem hostOps0_main_v11 :
    StableHlo.after (hostOps0 (F := Ideal)) V (Proc.devRef .tc main_v11) = Cert.ReferenceIdeal.Read.val_main_v40 (F := Ideal) (V main_arg1) := by
  show StableHlo.after hostOps0 V (Proc.devRef .tc main_v11) = _
  after_results
  rfl

theorem hostOps2_main_v44 (q : Fin 64) :
    StableHlo.after (hostOps2 (F := Ideal)) V (Proc.devRef .tc main_v44) (ix2 (0 : Fin 1) q) = V main_arg6 (ix1 q) := by
  show StableHlo.after hostOps2 V (Proc.devRef .tc main_v44) _ = _
  after_results
  exact shapeCast_apply _ shapeCasts_S64_S1x64 (ix2 (0 : Fin 1) q) (ix1 q)
    (by rewrite [Shape.rowMajor_val_two, Shape.rowMajor_val_one]; show q.val = 0 * 64 + q.val; omega)

theorem hostOps7_main_v110 (r : Fin 100000) :
    StableHlo.after (hostOps7 (F := Ideal)) V (Proc.devRef .tc main_v110) (ix2 r (0 : Fin 1)) = V main_arg2 (ix1 r) := by
  show StableHlo.after hostOps7 V (Proc.devRef .tc main_v110) _ = _
  after_results
  exact shapeCast_apply _ shapeCasts_S100000_S100000x1 (ix2 r (0 : Fin 1)) (ix1 r)
    (by rewrite [Shape.rowMajor_val_two, Shape.rowMajor_val_one]; show r.val = r.val * 1 + 0; omega)

theorem hostOps7_main_v111 :
    StableHlo.after (hostOps7 (F := Ideal)) V (Proc.devRef .tc main_v111) (ix2 (0 : Fin 1) (0 : Fin 1)) = V main_arg12 (ix1 (0 : Fin 1)) := by
  show StableHlo.after hostOps7 V (Proc.devRef .tc main_v111) _ = _
  after_results
  exact shapeCast_apply _ shapeCasts_S1_S1x1 (ix2 (0 : Fin 1) (0 : Fin 1)) (ix1 (0 : Fin 1))
    (by rewrite [Shape.rowMajor_val_two, Shape.rowMajor_val_one]; rfl)

end Cert.KernelIdeal.HandVal
-- ==== Proof.KI.BridgeMM.lean ====
import proofs.«431294_j88802743812362_2_alg».proof.Proof.Gen.ReferenceIdeal.Read
import Idealize.ShloMosaic.Lib.ValueIdx
import Idealize.ShloMosaic.PureOps.Ideal.Laws

noncomputable section

namespace Cert.KernelIdeal.HandVal

open Idealize.ShloMosaic Idealize.ShloMosaic.ValueIdx Idealize.ShloMosaic.StableHlo
open Cert.ReferenceIdeal.Read

/-- The tiled product and the reference's dot_general are the same sum over the contracted axis, index by index. -/
theorem mm128_eq (x0 : (⟨Cert.ReferenceIdeal.S100000x128, .f32⟩ : BufTy).Contents (Elt Ideal)) (x3 : (⟨Cert.ReferenceIdeal.S128x64, .f32⟩ : BufTy).Contents (Elt Ideal)) :
    (fun i : Cert.ReferenceIdeal.S100000x64.Idx => ∑ k : Fin 128, x0 (ix2 (i 0) k) * x3 (ix2 k (i 1))) = val_main_v11 (F := Ideal) x0 x3 := by
  funext i
  refine Eq.trans ?_ (val_main_v11_apply x0 x3 i).symm
  refine Finset.sum_congr rfl fun k _ => ?_
  have el : lidx_main_v11 i k = ix2 (i 0) k := funext fun a => by
    match a with
    | ⟨0, _⟩ => rfl
    | ⟨1, _⟩ => rfl
  have er : ridx_main_v11 i k = ix2 k (i 1) := funext fun a => by
    match a with
    | ⟨0, _⟩ => rfl
    | ⟨1, _⟩ => rfl
  rw [el, er]
  rfl

theorem mm64_eq (y : (⟨Cert.ReferenceIdeal.S100000x64, .f32⟩ : BufTy).Contents (Elt Ideal)) (w : (⟨Cert.ReferenceIdeal.S64x64, .f32⟩ : BufTy).Contents (Elt Ideal)) :
    (fun i : Cert.ReferenceIdeal.S100000x64.Idx => ∑ k : Fin 64, y (ix2 (i 0) k) * w (ix2 k (i 1)))
      = Host.dotGeneral (F := Ideal) (φ₁ := .f32) (φ₂ := .f32) Cert.ReferenceIdeal.dot_S100000x64_S64x64_S100000x64_1_0_0_1_n_n none y w := by
  funext i
  symm
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : (Cert.ReferenceIdeal.dot_S100000x64_S64x64_S100000x64_1_0_0_1_n_n).lhsIdx i ((ValueIdx.contrEquiv1 Cert.ReferenceIdeal.dot_S100000x64_S64x64_S100000x64_1_0_0_1_n_n 64 rfl rfl).symm k) = ix2 (i 0) k := funext fun a => Fin.ext (by
    match a with
    | ⟨0, _⟩ => exact lhs_main_v49_0 _ _
    | ⟨1, _⟩ => exact (lhs_main_v49_1 _ _).trans hk)
  have er : (Cert.ReferenceIdeal.dot_S100000x64_S64x64_S100000x64_1_0_0_1_n_n).rhsIdx i ((ValueIdx.contrEquiv1 Cert.ReferenceIdeal.dot_S100000x64_S64x64_S100000x64_1_0_0_1_n_n 64 rfl rfl).symm k) = ix2 k (i 1) := funext fun a => Fin.ext (by
    match a with
    | ⟨0, _⟩ => exact (rhs_main_v49_0 _ _).trans hk
    | ⟨1, _⟩ => exact rhs_main_v49_1 _ _)
  rw [el, er]
  rfl

theorem mm_v49 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) :
    (fun i : Cert.ReferenceIdeal.S100000x64.Idx => ∑ k : Fin 64, val_main_v48 (F := Ideal) x0 x1 x3 x4 (ix2 (i 0) k) * x5 (ix2 k (i 1)))
      = val_main_v49 (F := Ideal) x0 x1 x3 x4 x5 := by
  unfold val_main_v49
  exact mm64_eq (val_main_v48 (F := Ideal) x0 x1 x3 x4) x5

theorem mm_v54 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) :
    (fun i : Cert.ReferenceIdeal.S100000x64.Idx => ∑ k : Fin 64, val_main_v53 (F := Ideal) x0 x1 x3 x4 x5 x6 (ix2 (i 0) k) * x7 (ix2 k (i 1)))
      = val_main_v54 (F := Ideal) x0 x1 x3 x4 x5 x6 x7 := by
  unfold val_main_v54
  exact mm64_eq (val_main_v53 (F := Ideal) x0 x1 x3 x4 x5 x6) x7

theorem mm_v92 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) :
    (fun i : Cert.ReferenceIdeal.S100000x64.Idx => ∑ k : Fin 64, val_main_v91 (F := Ideal) x0 x1 x3 x4 x5 x6 x7 x8 (ix2 (i 0) k) * x9 (ix2 k (i 1)))
      = val_main_v92 (F := Ideal) x0 x1 x3 x4 x5 x6 x7 x8 x9 := by
  unfold val_main_v92
  exact mm64_eq (val_main_v91 (F := Ideal) x0 x1 x3 x4 x5 x6 x7 x8) x9

theorem v51_apply_ix1 (x6 : (⟨Cert.ReferenceIdeal.S64, .f32⟩ : BufTy).Contents (Elt Ideal)) (i : Cert.ReferenceIdeal.S100000x64.Idx) : val_main_v51 (F := Ideal) x6 i = x6 (ix1 (i 1)) := by
  rw [val_main_v51_apply, val_main_v50_apply]
  congr 1
  funext a
  match a with
  | ⟨0, _⟩ => rfl

/-- The dense layer over named arrays is the reference's stage: product, bias row, clamp. -/
theorem dense_v53 (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal))
    (B : (⟨Cert.ReferenceIdeal.S1x64, .f32⟩ : BufTy).Contents (Elt Ideal)) (hB : ∀ q : Fin 64, B (ix2 (0 : Fin 1) q) = x6 (ix1 q)) :
    (fun i : Cert.ReferenceIdeal.S100000x64.Idx =>
        max ((∑ k : Fin 64, val_main_v48 (F := Ideal) x0 x1 x3 x4 (ix2 (i 0) k) * x5 (ix2 k (i 1))) + B (ix2 (0 : Fin 1) (i 1)))
          (Ideal.ofBits .f32 0x00000000#32))
      = val_main_v53 (F := Ideal) x0 x1 x3 x4 x5 x6 := by
  funext i
  have h49 := congrFun (mm_v49 x0 x1 x3 x4 x5) i
  have hz : val_main_call1_v0 (F := Ideal) i = Ideal.ofBits .f32 0x00000000#32 := by
    rw [val_main_call1_v0_apply, val_main_call1_cst_apply]; rfl
  rw [val_main_v53_apply, val_main_v52_apply, hz, v51_apply_ix1, ← h49]
  exact congrArg₂ max (congrArg₂ (· + ·) rfl (hB (i 1))) rfl

end Cert.KernelIdeal.HandVal
-- ==== Proof.KI.BridgeLayer1.lean ====
import proofs.«431294_j88802743812362_2_alg».proof.Proof.Gen.KernelIdeal.Launch
import proofs.«431294_j88802743812362_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws

set_option maxRecDepth 1340

noncomputable section

namespace Cert.KernelIdeal.HandVal

open Cert.KernelIdeal Cert.KernelIdeal.Gen Idealize.ShloMosaic Idealize.ShloMosaic.TcCoe Idealize.SL.Sem Idealize.ShloMosaic.StableHlo
open Idealize.ShloMosaic.ValueIdx Cert.ReferenceIdeal.Read

def wrapIdx (e : IVec S3200000 32) : IVec S3200000x1 32 :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

def coef (dis : FVec Ideal S100000 .f32) (row col : IVec S3200000 32) : FVec Ideal S3200000x64 .f32 :=
  broadcastInDim S3200000x64 ![0, 1] bcast_S3200000x1_S3200000x64_0_1
    (broadcastInDim S3200000x1 ![0] bcast_S3200000_S3200000x1_0
      (mulf (Host.gather gather_S100000_S3200000x1_S3200000_n_0_n_n_0_1_1 dis (wrapIdx row))
            (Host.gather gather_S100000_S3200000x1_S3200000_n_0_n_n_0_1_1 dis (wrapIdx col))))

/-- The neighbourhood aggregate: rows of `h` gathered along the edges, scaled by the two endpoint factors and summed into the target rows. -/
def agg (h : FVec Ideal S100000x64 .f32) (dis : FVec Ideal S100000 .f32) (row col : IVec S3200000 32) : FVec Ideal S100000x64 .f32 :=
  Host.scatterAdd scatter_S100000x64_S3200000x1_S3200000x64_1_0_0_1
    (broadcastInDim S100000x64 ![] bcast_S_S100000x64 (constant S_ .f32 0x00000000#32))
    (broadcastInDim S3200000x1 ![0] bcast_S3200000_S3200000x1_0 col)
    (mulf (coef dis row col) (Host.gather gather_S100000x64_S3200000x1_S3200000x64_1_0_n_n_0_1_164 h (wrapIdx row)))

theorem mulf_comm' {s : Shape} (a b : FVec Ideal s .f32) : mulf a b = mulf b a := by
  funext i; exact mul_comm _ _

section Host
variable (V : Valuation τ sig (Elt Ideal))

theorem layer1_agg : StableHlo.after (hostOps1 (F := Ideal)) V (Proc.devRef .tc main_v40)
    = agg (V (Proc.devRef .tc main_v12)) (V (Proc.devRef .tc main_v10)) (V (Proc.devRef .tc main_v1)) (V (Proc.devRef .tc main_v3)) := by
  after_results_simp
  unfold agg
  rw [mulf_comm']
  rfl

theorem layer1_deg2_fun : StableHlo.after (hostOps1 (F := Ideal)) V (Proc.devRef .tc main_v41)
    = shapeCast S100000x1 (V (Proc.devRef .tc main_v11) : FVec Ideal S100000 .f32) shapeCasts_S100000_S100000x1 := by
  after_results_simp
  rfl

theorem layer1_deg2 (r : Fin 100000) : StableHlo.after (hostOps1 (F := Ideal)) V (Proc.devRef .tc main_v41) (ix2 r (0 : Fin 1))
    = V (Proc.devRef .tc main_v11) (ix1 r) := by
  rw [layer1_deg2_fun]
  exact shapeCast_apply _ shapeCasts_S100000_S100000x1 _ _
    (by rw [Shape.rowMajor_val_two, Shape.rowMajor_val_one]; show r.val = r.val * 1 + 0; omega)

theorem layer1_bias_fun : StableHlo.after (hostOps1 (F := Ideal)) V (Proc.devRef .tc main_v42)
    = shapeCast S1x64 (V (Proc.devRef .tc main_arg4) : FVec Ideal S64 .f32) shapeCasts_S64_S1x64 := by
  after_results_simp
  rfl

theorem layer1_bias (q : Fin 64) : StableHlo.after (hostOps1 (F := Ideal)) V (Proc.devRef .tc main_v42) (ix2 (0 : Fin 1) q)
    = V (Proc.devRef .tc main_arg4) (ix1 q) := by
  rw [layer1_bias_fun]
  exact shapeCast_apply _ shapeCasts_S64_S1x64 _ _
    (by rw [Shape.rowMajor_val_two, Shape.rowMajor_val_one]; show q.val = 0 * 64 + q.val; omega)

theorem layer1_h0 : StableHlo.after (hostOps1 (F := Ideal)) V (Proc.devRef .tc main_v12) = V (Proc.devRef .tc main_v12) := by
  after_results_simp

end Host

theorem layer1_ref_wrap1 (x1 : IVec S2x3200000 32) : val_main_v17 (F := Ideal) x1 = wrapIdx (val_main_v1 (F := Ideal) x1) := by
  unfold val_main_v17 val_main_v16 val_main_v13 val_main_v15 val_main_v12 val_main_v14 val_main_c val_main_c_2 wrapIdx
  rfl
theorem layer1_ref_wrap2 (x1 : IVec S2x3200000 32) : val_main_v24 (F := Ideal) x1 = wrapIdx (val_main_v3 (F := Ideal) x1) := by
  unfold val_main_v24 val_main_v23 val_main_v20 val_main_v22 val_main_v19 val_main_v21 val_main_c_3 val_main_c_4 wrapIdx
  rfl
theorem layer1_ref_wrap3 (x1 : IVec S2x3200000 32) : val_main_v33 (F := Ideal) x1 = wrapIdx (val_main_v1 (F := Ideal) x1) := by
  unfold val_main_v33 val_main_v32 val_main_v29 val_main_v31 val_main_v28 val_main_v30 val_main_c_5 val_main_c_6 wrapIdx
  rfl
theorem layer1_ref_coef (x1 : IVec S2x3200000 32) :
    val_main_v35 (F := Ideal) x1 = coef (val_main_v10 (F := Ideal) x1) (val_main_v1 (F := Ideal) x1) (val_main_v3 (F := Ideal) x1) := by
  unfold val_main_v35 val_main_v27 val_main_v26 val_main_v18 val_main_v25 coef
  rw [layer1_ref_wrap1, layer1_ref_wrap2]
  rfl

theorem layer1_ref_agg (x0 : FVec Ideal S100000x128 .f32) (x1 : IVec S2x3200000 32) (x3 : FVec Ideal S128x64 .f32) :
    val_main_v39 (F := Ideal) x0 x1 x3 = agg (val_main_v11 (F := Ideal) x0 x3) (val_main_v10 (F := Ideal) x1) (val_main_v1 (F := Ideal) x1) (val_main_v3 (F := Ideal) x1) := by
  unfold val_main_v39 val_main_v36 val_main_v34 val_main_v37 val_main_v38 val_main_cst_7 agg
  rw [layer1_ref_coef, layer1_ref_wrap3]
  rfl

theorem layer1_combine (x0 : FVec Ideal S100000x128 .f32) (x1 : IVec S2x3200000 32) (x3 : FVec Ideal S128x64 .f32) (x4 : FVec Ideal S64 .f32)
    (AGG H0 : FVec Ideal S100000x64 .f32) (DEG2COL : FVec Ideal S100000x1 .f32) (BROW : FVec Ideal S1x64 .f32)
    (hA : AGG = agg (val_main_v11 (F := Ideal) x0 x3) (val_main_v10 (F := Ideal) x1) (val_main_v1 (F := Ideal) x1) (val_main_v3 (F := Ideal) x1))
    (hD : ∀ r : Fin 100000, DEG2COL (ix2 r (0 : Fin 1)) = val_main_v40 (F := Ideal) x1 (ix1 r))
    (hH : H0 = val_main_v11 (F := Ideal) x0 x3)
    (hB : ∀ q : Fin 64, BROW (ix2 (0 : Fin 1) q) = x4 (ix1 q)) :
    (fun i : S100000x64.Idx => max (AGG i + DEG2COL (ix2 (i 0) (0 : Fin 1)) * H0 i + BROW (ix2 (0 : Fin 1) (i 1))) (Ideal.ofBits .f32 0x00000000#32))
      = val_main_v48 (F := Ideal) x0 x1 x3 x4 := by
  funext i
  have e1 : idx_main_v41 (idx_main_v42 i) = ix1 (i 0) := by funext a; match a with | ⟨0, _⟩ => rfl
  have e2 : idx_main_v45 (idx_main_v46 i) = ix1 (i 1) := by funext a; match a with | ⟨0, _⟩ => rfl
  have e3 : val_main_v40 (F := Ideal) x1 = val_main_v40 (F := Ideal) x1 := rfl
  rw [val_main_v48_apply, val_main_v47_apply, val_main_v44_apply, val_main_v43_apply, val_main_v42_apply, val_main_v41_apply,
    val_main_v46_apply, val_main_v45_apply, val_main_call0_v0_apply, val_main_call0_cst_apply, layer1_ref_agg, e1, e2, e3, ← hA, ← hH,
    Ideal.ofBits_def]
  show max (AGG i + DEG2COL (ix2 (i 0) (0 : Fin 1)) * H0 i + BROW (ix2 (0 : Fin 1) (i 1))) _ = _
  rw [hD (i 0), hB (i 1)]
  rfl

/-- Region 1's operands are what the stretch before it computes from region 0's output and the edge list, so its output is the reference's first layer. -/
theorem layer1 (V : Valuation τ sig (Elt Ideal)) (x0 : FVec Ideal S100000x128 .f32) (x1 : IVec S2x3200000 32) (x3 : FVec Ideal S128x64 .f32) (x4 : FVec Ideal S64 .f32)
    (AGG H0 : FVec Ideal S100000x64 .f32) (DEG2COL : FVec Ideal S100000x1 .f32) (BROW : FVec Ideal S1x64 .f32)
    (eA : AGG = StableHlo.after (hostOps1 (F := Ideal)) V (Proc.devRef .tc main_v40))
    (eH : H0 = StableHlo.after (hostOps1 (F := Ideal)) V (Proc.devRef .tc main_v12))
    (eD : DEG2COL = StableHlo.after (hostOps1 (F := Ideal)) V (Proc.devRef .tc main_v41))
    (eB : BROW = StableHlo.after (hostOps1 (F := Ideal)) V (Proc.devRef .tc main_v42))
    (hh : V (Proc.devRef .tc main_v12) = val_main_v11 (F := Ideal) x0 x3)
    (h10 : V (Proc.devRef .tc main_v10) = val_main_v10 (F := Ideal) x1)
    (h11 : V (Proc.devRef .tc main_v11) = val_main_v40 (F := Ideal) x1)
    (h1 : V (Proc.devRef .tc main_v1) = val_main_v1 (F := Ideal) x1)
    (h3 : V (Proc.devRef .tc main_v3) = val_main_v3 (F := Ideal) x1)
    (hb : V (Proc.devRef .tc main_arg4) = x4) :
    (fun i : S100000x64.Idx => max (AGG i + DEG2COL (ix2 (i 0) (0 : Fin 1)) * H0 i + BROW (ix2 (0 : Fin 1) (i 1))) (Ideal.ofBits .f32 0x00000000#32))
      = val_main_v48 (F := Ideal) x0 x1 x3 x4 :=
  layer1_combine x0 x1 x3 x4 AGG H0 DEG2COL BROW
    (by rw [eA, layer1_agg, hh, h10, h1, h3])
    (fun r => by rw [eD, layer1_deg2, h11])
    (by rw [eH, layer1_h0, hh])
    (fun q => by rw [eB, layer1_bias, hb])

end Cert.KernelIdeal.HandVal
-- ==== Proof.KI.BridgeLayer2.lean ====
import proofs.«431294_j88802743812362_2_alg».proof.Proof.KI.BridgeLayer1

set_option maxRecDepth 1340

noncomputable section

namespace Cert.KernelIdeal.HandVal

open Cert.KernelIdeal Cert.KernelIdeal.Gen Idealize.ShloMosaic Idealize.ShloMosaic.TcCoe Idealize.SL.Sem Idealize.ShloMosaic.StableHlo
open Idealize.ShloMosaic.ValueIdx Cert.ReferenceIdeal.Read

section Host
variable (V : Valuation τ sig (Elt Ideal))

theorem layer2_agg : StableHlo.after (hostOps4 (F := Ideal)) V (Proc.devRef .tc main_v74)
    = agg (V (Proc.devRef .tc main_v46)) (V (Proc.devRef .tc main_v10)) (V (Proc.devRef .tc main_v1)) (V (Proc.devRef .tc main_v3)) := by
  after_results_simp
  unfold agg
  rw [mulf_comm']
  rfl

theorem layer2_deg2_fun : StableHlo.after (hostOps4 (F := Ideal)) V (Proc.devRef .tc main_v75)
    = shapeCast S100000x1 (V (Proc.devRef .tc main_v11) : FVec Ideal S100000 .f32) shapeCasts_S100000_S100000x1 := by
  after_results_simp
  rfl

theorem layer2_deg2 (r : Fin 100000) : StableHlo.after (hostOps4 (F := Ideal)) V (Proc.devRef .tc main_v75) (ix2 r (0 : Fin 1))
    = V (Proc.devRef .tc main_v11) (ix1 r) := by
  rw [layer2_deg2_fun]
  exact shapeCast_apply _ shapeCasts_S100000_S100000x1 _ _
    (by rw [Shape.rowMajor_val_two, Shape.rowMajor_val_one]; show r.val = r.val * 1 + 0; omega)

theorem layer2_bias_fun : StableHlo.after (hostOps4 (F := Ideal)) V (Proc.devRef .tc main_v76)
    = shapeCast S1x64 (V (Proc.devRef .tc main_arg8) : FVec Ideal S64 .f32) shapeCasts_S64_S1x64 := by
  after_results_simp
  rfl

theorem layer2_bias (q : Fin 64) : StableHlo.after (hostOps4 (F := Ideal)) V (Proc.devRef .tc main_v76) (ix2 (0 : Fin 1) q)
    = V (Proc.devRef .tc main_arg8) (ix1 q) := by
  rw [layer2_bias_fun]
  exact shapeCast_apply _ shapeCasts_S64_S1x64 _ _
    (by rw [Shape.rowMajor_val_two, Shape.rowMajor_val_one]; show q.val = 0 * 64 + q.val; omega)

theorem layer2_h0 : StableHlo.after (hostOps4 (F := Ideal)) V (Proc.devRef .tc main_v46) = V (Proc.devRef .tc main_v46) := by
  after_results_simp

end Host

theorem layer2_ref_wrap1 (x1 : IVec S2x3200000 32) : val_main_v60 (F := Ideal) x1 = wrapIdx (val_main_v1 (F := Ideal) x1) := by
  unfold val_main_v60 val_main_v59 val_main_v56 val_main_v58 val_main_v55 val_main_v57 val_main_c_8 val_main_c_9 wrapIdx
  rfl
theorem layer2_ref_wrap2 (x1 : IVec S2x3200000 32) : val_main_v67 (F := Ideal) x1 = wrapIdx (val_main_v3 (F := Ideal) x1) := by
  unfold val_main_v67 val_main_v66 val_main_v63 val_main_v65 val_main_v62 val_main_v64 val_main_c_10 val_main_c_11 wrapIdx
  rfl
theorem layer2_ref_wrap3 (x1 : IVec S2x3200000 32) : val_main_v76 (F := Ideal) x1 = wrapIdx (val_main_v1 (F := Ideal) x1) := by
  unfold val_main_v76 val_main_v75 val_main_v72 val_main_v74 val_main_v71 val_main_v73 val_main_c_12 val_main_c_13 wrapIdx
  rfl
theorem layer2_ref_coef (x1 : IVec S2x3200000 32) :
    val_main_v78 (F := Ideal) x1 = coef (val_main_v10 (F := Ideal) x1) (val_main_v1 (F := Ideal) x1) (val_main_v3 (F := Ideal) x1) := by
  unfold val_main_v78 val_main_v70 val_main_v69 val_main_v61 val_main_v68 coef
  rw [layer2_ref_wrap1, layer2_ref_wrap2]
  rfl

theorem layer2_ref_agg (x0 : FVec Ideal S100000x128 .f32) (x1 : IVec S2x3200000 32) (x3 : FVec Ideal S128x64 .f32) (x4 : FVec Ideal S64 .f32) (x5 : FVec Ideal S64x64 .f32) (x6 : FVec Ideal S64 .f32) (x7 : FVec Ideal S64x64 .f32) :
    val_main_v82 (F := Ideal) x0 x1 x3 x4 x5 x6 x7 = agg (val_main_v54 (F := Ideal) x0 x1 x3 x4 x5 x6 x7) (val_main_v10 (F := Ideal) x1) (val_main_v1 (F := Ideal) x1) (val_main_v3 (F := Ideal) x1) := by
  unfold val_main_v82 val_main_v79 val_main_v77 val_main_v80 val_main_v81 val_main_cst_14 agg
  rw [layer2_ref_coef, layer2_ref_wrap3]
  rfl

theorem layer2_combine (x0 : FVec Ideal S100000x128 .f32) (x1 : IVec S2x3200000 32) (x3 : FVec Ideal S128x64 .f32) (x4 : FVec Ideal S64 .f32) (x5 : FVec Ideal S64x64 .f32) (x6 : FVec Ideal S64 .f32) (x7 : FVec Ideal S64x64 .f32) (x8 : FVec Ideal S64 .f32)
    (AGG H0 : FVec Ideal S100000x64 .f32) (DEG2COL : FVec Ideal S100000x1 .f32) (BROW : FVec Ideal S1x64 .f32)
    (hA : AGG = agg (val_main_v54 (F := Ideal) x0 x1 x3 x4 x5 x6 x7) (val_main_v10 (F := Ideal) x1) (val_main_v1 (F := Ideal) x1) (val_main_v3 (F := Ideal) x1))
    (hD : ∀ r : Fin 100000, DEG2COL (ix2 r (0 : Fin 1)) = val_main_v40 (F := Ideal) x1 (ix1 r))
    (hH : H0 = val_main_v54 (F := Ideal) x0 x1 x3 x4 x5 x6 x7)
    (hB : ∀ q : Fin 64, BROW (ix2 (0 : Fin 1) q) = x8 (ix1 q)) :
    (fun i : S100000x64.Idx => max (AGG i + DEG2COL (ix2 (i 0) (0 : Fin 1)) * H0 i + BROW (ix2 (0 : Fin 1) (i 1))) (Ideal.ofBits .f32 0x00000000#32))
      = val_main_v91 (F := Ideal) x0 x1 x3 x4 x5 x6 x7 x8 := by
  funext i
  have e1 : idx_main_v84 (idx_main_v85 i) = ix1 (i 0) := by funext a; match a with | ⟨0, _⟩ => rfl
  have e2 : idx_main_v88 (idx_main_v89 i) = ix1 (i 1) := by funext a; match a with | ⟨0, _⟩ => rfl
  have e3 : val_main_v83 (F := Ideal) x1 = val_main_v40 (F := Ideal) x1 := rfl
  rw [val_main_v91_apply, val_main_v90_apply, val_main_v87_apply, val_main_v86_apply, val_main_v85_apply, val_main_v84_apply,
    val_main_v89_apply, val_main_v88_apply, val_main_call2_v0_apply, val_main_call2_cst_apply, layer2_ref_agg, e1, e2, e3, ← hA, ← hH,
    Ideal.ofBits_def]
  show max (AGG i + DEG2COL (ix2 (i 0) (0 : Fin 1)) * H0 i + BROW (ix2 (0 : Fin 1) (i 1))) _ = _
  rw [hD (i 0), hB (i 1)]
  rfl

/-- The second layer, as the first: the combine region's operands are the gather, scale and scatter of region 3's output. -/
theorem layer2 (V : Valuation τ sig (Elt Ideal)) (x0 : FVec Ideal S100000x128 .f32) (x1 : IVec S2x3200000 32) (x3 : FVec Ideal S128x64 .f32) (x4 : FVec Ideal S64 .f32) (x5 : FVec Ideal S64x64 .f32) (x6 : FVec Ideal S64 .f32) (x7 : FVec Ideal S64x64 .f32) (x8 : FVec Ideal S64 .f32)
    (AGG H0 : FVec Ideal S100000x64 .f32) (DEG2COL : FVec Ideal S100000x1 .f32) (BROW : FVec Ideal S1x64 .f32)
    (eA : AGG = StableHlo.after (hostOps4 (F := Ideal)) V (Proc.devRef .tc main_v74))
    (eH : H0 = StableHlo.after (hostOps4 (F := Ideal)) V (Proc.devRef .tc main_v46))
    (eD : DEG2COL = StableHlo.after (hostOps4 (F := Ideal)) V (Proc.devRef .tc main_v75))
    (eB : BROW = StableHlo.after (hostOps4 (F := Ideal)) V (Proc.devRef .tc main_v76))
    (hh : V (Proc.devRef .tc main_v46) = val_main_v54 (F := Ideal) x0 x1 x3 x4 x5 x6 x7)
    (h10 : V (Proc.devRef .tc main_v10) = val_main_v10 (F := Ideal) x1)
    (h11 : V (Proc.devRef .tc main_v11) = val_main_v40 (F := Ideal) x1)
    (h1 : V (Proc.devRef .tc main_v1) = val_main_v1 (F := Ideal) x1)
    (h3 : V (Proc.devRef .tc main_v3) = val_main_v3 (F := Ideal) x1)
    (hb : V (Proc.devRef .tc main_arg8) = x8) :
    (fun i : S100000x64.Idx => max (AGG i + DEG2COL (ix2 (i 0) (0 : Fin 1)) * H0 i + BROW (ix2 (0 : Fin 1) (i 1))) (Ideal.ofBits .f32 0x00000000#32))
      = val_main_v91 (F := Ideal) x0 x1 x3 x4 x5 x6 x7 x8 :=
  layer2_combine x0 x1 x3 x4 x5 x6 x7 x8 AGG H0 DEG2COL BROW
    (by rw [eA, layer2_agg, hh, h10, h1, h3])
    (fun r => by rw [eD, layer2_deg2, h11])
    (by rw [eH, layer2_h0, hh])
    (fun q => by rw [eB, layer2_bias, hb])

end Cert.KernelIdeal.HandVal
-- ==== Proof.KI.BridgeLayer3.lean ====
import proofs.«431294_j88802743812362_2_alg».proof.Proof.KI.BridgeLayer1

set_option maxRecDepth 1340

noncomputable section

namespace Cert.KernelIdeal.HandVal

open Cert.KernelIdeal Cert.KernelIdeal.Gen Idealize.ShloMosaic Idealize.ShloMosaic.TcCoe Idealize.SL.Sem Idealize.ShloMosaic.StableHlo
open Idealize.ShloMosaic.ValueIdx Cert.ReferenceIdeal.Read

section Host
variable (V : Valuation τ sig (Elt Ideal))

theorem layer3_agg : StableHlo.after (hostOps6 (F := Ideal)) V (Proc.devRef .tc main_v106)
    = agg (V (Proc.devRef .tc main_v78)) (V (Proc.devRef .tc main_v10)) (V (Proc.devRef .tc main_v1)) (V (Proc.devRef .tc main_v3)) := by
  after_results_simp
  unfold agg
  rw [mulf_comm']
  rfl

theorem layer3_deg2_fun : StableHlo.after (hostOps6 (F := Ideal)) V (Proc.devRef .tc main_v107)
    = shapeCast S100000x1 (V (Proc.devRef .tc main_v11) : FVec Ideal S100000 .f32) shapeCasts_S100000_S100000x1 := by
  after_results_simp
  rfl

theorem layer3_deg2 (r : Fin 100000) : StableHlo.after (hostOps6 (F := Ideal)) V (Proc.devRef .tc main_v107) (ix2 r (0 : Fin 1))
    = V (Proc.devRef .tc main_v11) (ix1 r) := by
  rw [layer3_deg2_fun]
  exact shapeCast_apply _ shapeCasts_S100000_S100000x1 _ _
    (by rw [Shape.rowMajor_val_two, Shape.rowMajor_val_one]; show r.val = r.val * 1 + 0; omega)

theorem layer3_bias_fun : StableHlo.after (hostOps6 (F := Ideal)) V (Proc.devRef .tc main_v108)
    = shapeCast S1x64 (V (Proc.devRef .tc main_arg10) : FVec Ideal S64 .f32) shapeCasts_S64_S1x64 := by
  after_results_simp
  rfl

theorem layer3_bias (q : Fin 64) : StableHlo.after (hostOps6 (F := Ideal)) V (Proc.devRef .tc main_v108) (ix2 (0 : Fin 1) q)
    = V (Proc.devRef .tc main_arg10) (ix1 q) := by
  rw [layer3_bias_fun]
  exact shapeCast_apply _ shapeCasts_S64_S1x64 _ _
    (by rw [Shape.rowMajor_val_two, Shape.rowMajor_val_one]; show q.val = 0 * 64 + q.val; omega)

theorem layer3_h0 : StableHlo.after (hostOps6 (F := Ideal)) V (Proc.devRef .tc main_v78) = V (Proc.devRef .tc main_v78) := by
  after_results_simp

end Host

theorem layer3_ref_wrap1 (x1 : IVec S2x3200000 32) : val_main_v98 (F := Ideal) x1 = wrapIdx (val_main_v1 (F := Ideal) x1) := by
  unfold val_main_v98 val_main_v97 val_main_v94 val_main_v96 val_main_v93 val_main_v95 val_main_c_15 val_main_c_16 wrapIdx
  rfl
theorem layer3_ref_wrap2 (x1 : IVec S2x3200000 32) : val_main_v105 (F := Ideal) x1 = wrapIdx (val_main_v3 (F := Ideal) x1) := by
  unfold val_main_v105 val_main_v104 val_main_v101 val_main_v103 val_main_v100 val_main_v102 val_main_c_17 val_main_c_18 wrapIdx
  rfl
theorem layer3_ref_wrap3 (x1 : IVec S2x3200000 32) : val_main_v114 (F := Ideal) x1 = wrapIdx (val_main_v1 (F := Ideal) x1) := by
  unfold val_main_v114 val_main_v113 val_main_v110 val_main_v112 val_main_v109 val_main_v111 val_main_c_19 val_main_c_20 wrapIdx
  rfl
theorem layer3_ref_coef (x1 : IVec S2x3200000 32) :
    val_main_v116 (F := Ideal) x1 = coef (val_main_v10 (F := Ideal) x1) (val_main_v1 (F := Ideal) x1) (val_main_v3 (F := Ideal) x1) := by
  unfold val_main_v116 val_main_v108 val_main_v107 val_main_v99 val_main_v106 coef
  rw [layer3_ref_wrap1, layer3_ref_wrap2]
  rfl

theorem layer3_ref_agg (x0 : FVec Ideal S100000x128 .f32) (x1 : IVec S2x3200000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) :
    val_main_v120 (F := Ideal) x0 x1 x3 x4 x5 x6 x7 x8 x9 = agg (val_main_v92 (F := Ideal) x0 x1 x3 x4 x5 x6 x7 x8 x9) (val_main_v10 (F := Ideal) x1) (val_main_v1 (F := Ideal) x1) (val_main_v3 (F := Ideal) x1) := by
  unfold val_main_v120 val_main_v117 val_main_v115 val_main_v118 val_main_v119 val_main_cst_21 agg
  rw [layer3_ref_coef, layer3_ref_wrap3]
  rfl

theorem layer3_combine (x0 : FVec Ideal S100000x128 .f32) (x1 : IVec S2x3200000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32)
    (AGG H0 : FVec Ideal S100000x64 .f32) (DEG2COL : FVec Ideal S100000x1 .f32) (BROW : FVec Ideal S1x64 .f32)
    (hA : AGG = agg (val_main_v92 (F := Ideal) x0 x1 x3 x4 x5 x6 x7 x8 x9) (val_main_v10 (F := Ideal) x1) (val_main_v1 (F := Ideal) x1) (val_main_v3 (F := Ideal) x1))
    (hD : ∀ r : Fin 100000, DEG2COL (ix2 r (0 : Fin 1)) = val_main_v40 (F := Ideal) x1 (ix1 r))
    (hH : H0 = val_main_v92 (F := Ideal) x0 x1 x3 x4 x5 x6 x7 x8 x9)
    (hB : ∀ q : Fin 64, BROW (ix2 (0 : Fin 1) q) = x10 (ix1 q)) :
    (fun i : S100000x64.Idx => max (AGG i + DEG2COL (ix2 (i 0) (0 : Fin 1)) * H0 i + BROW (ix2 (0 : Fin 1) (i 1))) (Ideal.ofBits .f32 0x00000000#32))
      = val_main_v129 (F := Ideal) x0 x1 x3 x4 x5 x6 x7 x8 x9 x10 := by
  funext i
  have e1 : idx_main_v122 (idx_main_v123 i) = ix1 (i 0) := by funext a; match a with | ⟨0, _⟩ => rfl
  have e2 : idx_main_v126 (idx_main_v127 i) = ix1 (i 1) := by funext a; match a with | ⟨0, _⟩ => rfl
  have e3 : val_main_v121 (F := Ideal) x1 = val_main_v40 (F := Ideal) x1 := rfl
  rw [val_main_v129_apply, val_main_v128_apply, val_main_v125_apply, val_main_v124_apply, val_main_v123_apply, val_main_v122_apply,
    val_main_v127_apply, val_main_v126_apply, val_main_call3_v0_apply, val_main_call3_cst_apply, layer3_ref_agg, e1, e2, e3, ← hA, ← hH,
    Ideal.ofBits_def]
  show max (AGG i + DEG2COL (ix2 (i 0) (0 : Fin 1)) * H0 i + BROW (ix2 (0 : Fin 1) (i 1))) _ = _
  rw [hD (i 0), hB (i 1)]
  rfl

/-- The third layer, as the first two. -/
theorem layer3 (V : Valuation τ sig (Elt Ideal)) (x0 : FVec Ideal S100000x128 .f32) (x1 : IVec S2x3200000 32) (x3 : FVec Ideal S128x64 .f32) (x4 : FVec Ideal S64 .f32) (x5 : FVec Ideal S64x64 .f32) (x6 : FVec Ideal S64 .f32) (x7 : FVec Ideal S64x64 .f32) (x8 : FVec Ideal S64 .f32) (x9 : FVec Ideal S64x64 .f32) (x10 : FVec Ideal S64 .f32)
    (AGG H0 : FVec Ideal S100000x64 .f32) (DEG2COL : FVec Ideal S100000x1 .f32) (BROW : FVec Ideal S1x64 .f32)
    (eA : AGG = StableHlo.after (hostOps6 (F := Ideal)) V (Proc.devRef .tc main_v106))
    (eH : H0 = StableHlo.after (hostOps6 (F := Ideal)) V (Proc.devRef .tc main_v78))
    (eD : DEG2COL = StableHlo.after (hostOps6 (F := Ideal)) V (Proc.devRef .tc main_v107))
    (eB : BROW = StableHlo.after (hostOps6 (F := Ideal)) V (Proc.devRef .tc main_v108))
    (hh : V (Proc.devRef .tc main_v78) = val_main_v92 (F := Ideal) x0 x1 x3 x4 x5 x6 x7 x8 x9)
    (h10 : V (Proc.devRef .tc main_v10) = val_main_v10 (F := Ideal) x1)
    (h11 : V (Proc.devRef .tc main_v11) = val_main_v40 (F := Ideal) x1)
    (h1 : V (Proc.devRef .tc main_v1) = val_main_v1 (F := Ideal) x1)
    (h3 : V (Proc.devRef .tc main_v3) = val_main_v3 (F := Ideal) x1)
    (hb : V (Proc.devRef .tc main_arg10) = x10) :
    (fun i : S100000x64.Idx => max (AGG i + DEG2COL (ix2 (i 0) (0 : Fin 1)) * H0 i + BROW (ix2 (0 : Fin 1) (i 1))) (Ideal.ofBits .f32 0x00000000#32))
      = val_main_v129 (F := Ideal) x0 x1 x3 x4 x5 x6 x7 x8 x9 x10 :=
  layer3_combine x0 x1 x3 x4 x5 x6 x7 x8 x9 x10 AGG H0 DEG2COL BROW
    (by rw [eA, layer3_agg, hh, h10, h1, h3])
    (fun r => by rw [eD, layer3_deg2, h11])
    (by rw [eH, layer3_h0, hh])
    (fun q => by rw [eB, layer3_bias, hb])

end Cert.KernelIdeal.HandVal
-- ==== Proof.KI.Chain.lean ====
import proofs.«431294_j88802743812362_2_alg».proof.Proof.KI.Run
import proofs.«431294_j88802743812362_2_alg».proof.Proof.KI.ValA0
import proofs.«431294_j88802743812362_2_alg».proof.Proof.KI.ValA1
import proofs.«431294_j88802743812362_2_alg».proof.Proof.KI.ValA2
import proofs.«431294_j88802743812362_2_alg».proof.Proof.KI.ValA3
import proofs.«431294_j88802743812362_2_alg».proof.Proof.KI.ValA4
import proofs.«431294_j88802743812362_2_alg».proof.Proof.KI.ValA5
import proofs.«431294_j88802743812362_2_alg».proof.Proof.KI.ValA6
import proofs.«431294_j88802743812362_2_alg».proof.Proof.KI.Val7
import proofs.«431294_j88802743812362_2_alg».proof.Proof.KI.Val7Ref
import proofs.«431294_j88802743812362_2_alg».proof.Proof.KI.BridgeSmall
import proofs.«431294_j88802743812362_2_alg».proof.Proof.KI.BridgeMM
import proofs.«431294_j88802743812362_2_alg».proof.Proof.KI.BridgeLayer1
import proofs.«431294_j88802743812362_2_alg».proof.Proof.KI.BridgeLayer2
import proofs.«431294_j88802743812362_2_alg».proof.Proof.KI.BridgeLayer3
import proofs.«431294_j88802743812362_2_alg».proof.Proof.Gen.ReferenceIdeal.Read

noncomputable section

namespace Cert.KernelIdeal.HandVal

open Cert.KernelIdeal Cert.KernelIdeal.Gen Cert.KernelIdeal.Hand
open Idealize.ShloMosaic Idealize.ShloMosaic.TcCoe Idealize.ShloMosaic.ValueIdx Idealize.SL.Sem
open Cert.ReferenceIdeal.Read
open scoped BigOperators

variable (m : (ℓ : Loc nD τ sig) → Buf (Elt Ideal) ℓ) (ρ : Dev nD → PrngReg) (c : Dev nD)

abbrev inp0 : (⟨Cert.ReferenceIdeal.S100000x128, .f32⟩ : BufTy).Contents (Elt Ideal) := m ((c : Thread nD τ).loc main_arg0)

abbrev inp1 : (⟨Cert.ReferenceIdeal.S2x3200000, .i32⟩ : BufTy).Contents (Elt Ideal) := m ((c : Thread nD τ).loc main_arg1)

abbrev inp2 : (⟨Cert.ReferenceIdeal.S100000, .i32⟩ : BufTy).Contents (Elt Ideal) := m ((c : Thread nD τ).loc main_arg2)

abbrev inp3 : (⟨Cert.ReferenceIdeal.S128x64, .f32⟩ : BufTy).Contents (Elt Ideal) := m ((c : Thread nD τ).loc main_arg3)

abbrev inp4 : (⟨Cert.ReferenceIdeal.S64, .f32⟩ : BufTy).Contents (Elt Ideal) := m ((c : Thread nD τ).loc main_arg4)

abbrev inp5 : (⟨Cert.ReferenceIdeal.S64x64, .f32⟩ : BufTy).Contents (Elt Ideal) := m ((c : Thread nD τ).loc main_arg5)

abbrev inp6 : (⟨Cert.ReferenceIdeal.S64, .f32⟩ : BufTy).Contents (Elt Ideal) := m ((c : Thread nD τ).loc main_arg6)

abbrev inp7 : (⟨Cert.ReferenceIdeal.S64x64, .f32⟩ : BufTy).Contents (Elt Ideal) := m ((c : Thread nD τ).loc main_arg7)

abbrev inp8 : (⟨Cert.ReferenceIdeal.S64, .f32⟩ : BufTy).Contents (Elt Ideal) := m ((c : Thread nD τ).loc main_arg8)

abbrev inp9 : (⟨Cert.ReferenceIdeal.S64x64, .f32⟩ : BufTy).Contents (Elt Ideal) := m ((c : Thread nD τ).loc main_arg9)

abbrev inp10 : (⟨Cert.ReferenceIdeal.S64, .f32⟩ : BufTy).Contents (Elt Ideal) := m ((c : Thread nD τ).loc main_arg10)

abbrev inp11 : (⟨Cert.ReferenceIdeal.S64x1, .f32⟩ : BufTy).Contents (Elt Ideal) := m ((c : Thread nD τ).loc main_arg11)

abbrev inp12 : (⟨Cert.ReferenceIdeal.S1, .f32⟩ : BufTy).Contents (Elt Ideal) := m ((c : Thread nD τ).loc main_arg12)

/-- Region 0 leaves the features times the first weight; both operands are arguments no earlier item writes. -/
theorem step0 : W2 m ρ c (Proc.devRef .tc main_v12) = val_main_v11 (F := Ideal) (inp0 m c) (inp3 m c) :=
  (W2_out m ρ c).trans ((final0 (V1 m ρ) c).trans
    ((congrArg₂ prod0 (walk m ρ c main_arg0 0 1 (by decide) (by decide)) (walk m ρ c main_arg3 0 1 (by decide) (by decide))).trans (mm128_eq (inp0 m c) (inp3 m c))))

/-- Region 1 leaves the first layer's output. -/
theorem step1 : W4 m ρ c (Proc.devRef .tc main_v43) = val_main_v48 (F := Ideal) (inp0 m c) (inp1 m c) (inp3 m c) (inp4 m c) :=
  (W4_out m ρ c).trans ((final1 (V3 m ρ) c).trans
    (layer1 (W2 m ρ c) (inp0 m c) (inp1 m c) (inp3 m c) (inp4 m c)
      (V3 m ρ c main_v40) (V3 m ρ c main_v12) (V3 m ρ c main_v41) (V3 m ρ c main_v42) rfl rfl rfl rfl
      (step0 m ρ c)
      ((walk m ρ c main_v10 1 2 (by decide) (by decide)).trans (hostOps0_main_v10 (W0 m ρ c)))
      ((walk m ρ c main_v11 1 2 (by decide) (by decide)).trans (hostOps0_main_v11 (W0 m ρ c)))
      ((walk m ρ c main_v1 1 2 (by decide) (by decide)).trans (hostOps0_main_v1 (W0 m ρ c)))
      ((walk m ρ c main_v3 1 2 (by decide) (by decide)).trans (hostOps0_main_v3 (W0 m ρ c)))
      (walk m ρ c main_arg4 0 2 (by decide) (by decide))))

/-- Region 2 leaves the dense layer's output. -/
theorem step2 : W6 m ρ c (Proc.devRef .tc main_v45) = val_main_v53 (F := Ideal) (inp0 m c) (inp1 m c) (inp3 m c) (inp4 m c) (inp5 m c) (inp6 m c) :=
  (W6_out m ρ c).trans ((final2 (V5 m ρ) c).trans
    ((congrArg₂ (fun X W => dense2 X W (V5 m ρ c main_v44))
        ((walk m ρ c main_v43 4 5 (by decide) (by decide)).trans (step1 m ρ c)) (walk m ρ c main_arg5 0 5 (by decide) (by decide))).trans
      (dense_v53 (inp0 m c) (inp1 m c) (inp3 m c) (inp4 m c) (inp5 m c) (inp6 m c) (V5 m ρ c main_v44)
        (fun q => (hostOps2_main_v44 (W4 m ρ c) q).trans
          (congrArg (fun f : S64.Idx → Elt Ideal .f32 => f (ix1 q)) (walk m ρ c main_arg6 0 4 (by decide) (by decide)))))))

/-- Region 3 leaves region 2's output times the second weight. -/
theorem step3 : W7 m ρ c (Proc.devRef .tc main_v46) = val_main_v54 (F := Ideal) (inp0 m c) (inp1 m c) (inp3 m c) (inp4 m c) (inp5 m c) (inp6 m c) (inp7 m c) :=
  (W7_out m ρ c).trans ((final3 (V6 m ρ) c).trans
    ((congrArg₂ prod3 (step2 m ρ c) (walk m ρ c main_arg7 0 6 (by decide) (by decide))).trans (mm_v54 (inp0 m c) (inp1 m c) (inp3 m c) (inp4 m c) (inp5 m c) (inp6 m c) (inp7 m c))))

/-- Region 4 leaves the second layer's output. -/
theorem step4 : W9 m ρ c (Proc.devRef .tc main_v77) = val_main_v91 (F := Ideal) (inp0 m c) (inp1 m c) (inp3 m c) (inp4 m c) (inp5 m c) (inp6 m c) (inp7 m c) (inp8 m c) :=
  (W9_out m ρ c).trans ((final4 (V8 m ρ) c).trans
    (layer2 (W7 m ρ c) (inp0 m c) (inp1 m c) (inp3 m c) (inp4 m c) (inp5 m c) (inp6 m c) (inp7 m c) (inp8 m c)
      (V8 m ρ c main_v74) (V8 m ρ c main_v46) (V8 m ρ c main_v75) (V8 m ρ c main_v76) rfl rfl rfl rfl
      (step3 m ρ c)
      ((walk m ρ c main_v10 1 7 (by decide) (by decide)).trans (hostOps0_main_v10 (W0 m ρ c)))
      ((walk m ρ c main_v11 1 7 (by decide) (by decide)).trans (hostOps0_main_v11 (W0 m ρ c)))
      ((walk m ρ c main_v1 1 7 (by decide) (by decide)).trans (hostOps0_main_v1 (W0 m ρ c)))
      ((walk m ρ c main_v3 1 7 (by decide) (by decide)).trans (hostOps0_main_v3 (W0 m ρ c)))
      (walk m ρ c main_arg8 0 7 (by decide) (by decide))))

/-- Region 5 leaves region 4's output times the third weight. -/
theorem step5 : W10 m ρ c (Proc.devRef .tc main_v78) = val_main_v92 (F := Ideal) (inp0 m c) (inp1 m c) (inp3 m c) (inp4 m c) (inp5 m c) (inp6 m c) (inp7 m c) (inp8 m c) (inp9 m c) :=
  (W10_out m ρ c).trans ((final5 (V9 m ρ) c).trans
    ((congrArg₂ prod5 (step4 m ρ c) (walk m ρ c main_arg9 0 9 (by decide) (by decide))).trans (mm_v92 (inp0 m c) (inp1 m c) (inp3 m c) (inp4 m c) (inp5 m c) (inp6 m c) (inp7 m c) (inp8 m c) (inp9 m c))))

/-- Region 6 leaves the third layer's output. -/
theorem step6 : W12 m ρ c (Proc.devRef .tc main_v109) = val_main_v129 (F := Ideal) (inp0 m c) (inp1 m c) (inp3 m c) (inp4 m c) (inp5 m c) (inp6 m c) (inp7 m c) (inp8 m c) (inp9 m c) (inp10 m c) :=
  (W12_out m ρ c).trans ((final6 (V11 m ρ) c).trans
    (layer3 (W10 m ρ c) (inp0 m c) (inp1 m c) (inp3 m c) (inp4 m c) (inp5 m c) (inp6 m c) (inp7 m c) (inp8 m c) (inp9 m c) (inp10 m c)
      (V11 m ρ c main_v106) (V11 m ρ c main_v78) (V11 m ρ c main_v107) (V11 m ρ c main_v108) rfl rfl rfl rfl
      (step5 m ρ c)
      ((walk m ρ c main_v10 1 10 (by decide) (by decide)).trans (hostOps0_main_v10 (W0 m ρ c)))
      ((walk m ρ c main_v11 1 10 (by decide) (by decide)).trans (hostOps0_main_v11 (W0 m ρ c)))
      ((walk m ρ c main_v1 1 10 (by decide) (by decide)).trans (hostOps0_main_v1 (W0 m ρ c)))
      ((walk m ρ c main_v3 1 10 (by decide) (by decide)).trans (hostOps0_main_v3 (W0 m ρ c)))
      (walk m ρ c main_arg10 0 10 (by decide) (by decide))))

/-- The pooled head over named arrays is the reference's last stage, term by term. -/
theorem pool7_eq (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S128x64, .f32⟩ : BufTy).Contents (Elt Ideal)) (x4 : (⟨Cert.ReferenceIdeal.S64, .f32⟩ : BufTy).Contents (Elt Ideal)) (x5 : (⟨Cert.ReferenceIdeal.S64x64, .f32⟩ : BufTy).Contents (Elt Ideal)) (x6 : (⟨Cert.ReferenceIdeal.S64, .f32⟩ : BufTy).Contents (Elt Ideal)) (x7 : (⟨Cert.ReferenceIdeal.S64x64, .f32⟩ : BufTy).Contents (Elt Ideal)) (x8 : (⟨Cert.ReferenceIdeal.S64, .f32⟩ : BufTy).Contents (Elt Ideal)) (x9 : (⟨Cert.ReferenceIdeal.S64x64, .f32⟩ : BufTy).Contents (Elt Ideal)) (x10 : (⟨Cert.ReferenceIdeal.S64, .f32⟩ : BufTy).Contents (Elt Ideal)) (x11 : (⟨Cert.ReferenceIdeal.S64x1, .f32⟩ : BufTy).Contents (Elt Ideal)) (x12 : (⟨Cert.ReferenceIdeal.S1, .f32⟩ : BufTy).Contents (Elt Ideal))
    (H : S100000x64.Idx → Elt Ideal .f32) (B : S100000x1.Idx → BitVec 32) (LW : S64x1.Idx → Elt Ideal .f32) (LB : S1x1.Idx → Elt Ideal .f32)
    (hH : H = val_main_v129 (F := Ideal) x0 x1 x3 x4 x5 x6 x7 x8 x9 x10)
    (hB : ∀ r : Fin 100000, B (ix2 r (0 : Fin 1)) = x2 (ix1 r))
    (hW : LW = x11)
    (hLB : LB (ix2 (0 : Fin 1) (0 : Fin 1)) = x12 (ix1 (0 : Fin 1))) :
    pool7 H B LW LB = val_main_v145 (F := Ideal) x0 x1 x2 x3 x4 x5 x6 x7 x8 x9 x10 x11 x12 := by
  rw [hW]
  funext i
  obtain ⟨g, rfl⟩ : ∃ g : Fin 64, i = ix2 g (0 : Fin 1) := ⟨i 0, ix2_row_zero i⟩
  refine Eq.trans ?_ (ref7_final_of x0 x1 x2 x3 x4 x5 x6 x7 x8 x9 x10 x11 x12 H hH.symm g).symm
  show (∑ d : Fin 64, Ideal.div (∑ r : Fin 100000, onehotW (B (ix2 r 0)) g.val * H (ix2 r d))
      (max (∑ r : Fin 100000, onehotW (B (ix2 r 0)) g.val) 1) * x11 (ix2 d 0)) + LB (ix2 0 0) = _
  simp only [hB, hLB]

/-- The program's result is the reference's last stage function of the thirteen arguments. -/
theorem kernel_value (m : (ℓ : Loc nD τ sig) → Buf (Elt Ideal) ℓ) (ρ : Dev nD → PrngReg) (c : Dev nD) :
    W14 m ρ c (Proc.devRef .tc main_v112) = val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W14_out m ρ c).trans ((final7 (V13 m ρ) c).trans
    (pool7_eq (inp0 m c) (inp1 m c) (inp2 m c) (inp3 m c) (inp4 m c) (inp5 m c) (inp6 m c) (inp7 m c) (inp8 m c) (inp9 m c) (inp10 m c) (inp11 m c) (inp12 m c)
      (V13 m ρ c main_v109) (V13 m ρ c main_v110) (V13 m ρ c main_arg11) (V13 m ρ c main_v111)
      ((walk m ρ c main_v109 12 13 (by decide) (by decide)).trans (step6 m ρ c))
      (fun r => (hostOps7_main_v110 (W12 m ρ c) r).trans
        (congrArg (fun f : S100000.Idx → Elt Ideal .i32 => f (ix1 r)) (walk m ρ c main_arg2 0 12 (by decide) (by decide))))
      (walk m ρ c main_arg11 0 13 (by decide) (by decide))
      ((hostOps7_main_v111 (W12 m ρ c)).trans
        (congrArg (fun f : S1.Idx → Elt Ideal .f32 => f (ix1 (0 : Fin 1))) (walk m ρ c main_arg12 0 12 (by decide) (by decide))))))

end Cert.KernelIdeal.HandVal
-- ==== Proof.RefSide.lean ====
import proofs.«431294_j88802743812362_2_alg».proof.Defs
import proofs.«431294_j88802743812362_2_alg».proof.Proof.Gen.ReferenceIdeal
import proofs.«431294_j88802743812362_2_alg».proof.Proof.Gen.Pre_finite_inputs
import proofs.«431294_j88802743812362_2_alg».proof.Proof.Gen.ReferenceIdeal.Run
import proofs.«431294_j88802743812362_2_alg».proof.Proof.Gen.ReferenceIdeal.Read

noncomputable section

namespace Cert.Proof.RefSide

open Idealize.ShloMosaic Idealize.ShloMosaic.TcCoe Idealize.SL.Sem

/-- The reference runs to the end and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The reference's run ends with its result at the last stage function of the arguments. -/
theorem run_val (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v145)
        = Cert.ReferenceIdeal.Read.val_main_v145 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)) :=
  (θ_run Cert.ReferenceIdeal.defs _ _).mono
    (fun _ h c => ⟨(h c).1.trans (Cert.ReferenceIdeal.Read.val_main_v145_eq m' c), (h c).2⟩)
    (Cert.ReferenceIdeal.Value.run (F := Ideal) m' ρ')

end Cert.Proof.RefSide

end
-- ==== Proof.lean ====
import proofs.«431294_j88802743812362_2_alg».proof.Defs
import proofs.«431294_j88802743812362_2_alg».proof.Proof.Gen.Kernel
import proofs.«431294_j88802743812362_2_alg».proof.Proof.Gen.KernelIdeal
import proofs.«431294_j88802743812362_2_alg».proof.Proof.Gen.ReferenceIdeal
import proofs.«431294_j88802743812362_2_alg».proof.Proof.Gen.Pre_finite_inputs
import proofs.«431294_j88802743812362_2_alg».proof.Proof.K.Run
import proofs.«431294_j88802743812362_2_alg».proof.Proof.KI.Run
import proofs.«431294_j88802743812362_2_alg».proof.Proof.KI.Chain
import proofs.«431294_j88802743812362_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ fun _ h c => by
  refine ⟨?_, ?_, ?_, ?_, ?_, ?_, ?_, ?_, ?_, ?_, ?_, ?_, ?_⟩ <;> exact h c _ (by decide) (by decide)

theorem frame_ki : Cert.frame_KernelIdeal := fun m ρ _ => Cert.KernelIdeal.Hand.frame (F := Ideal) m ρ fun _ h c => by
  refine ⟨?_, ?_, ?_, ?_, ?_, ?_, ?_, ?_, ?_, ?_, ?_, ?_, ?_⟩ <;> exact h c _ (by decide) (by decide)

theorem algebraic : Cert.algebraic_KernelIdeal_ReferenceIdeal := by
  intro m ρ m' ρ' _ hagree
  refine ⟨fun c => Cert.ReferenceIdeal.Read.val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v112 (by decide))).trans (Cert.KernelIdeal.HandVal.kernel_value m ρ c),
      ?_, ?_, ?_, ?_, ?_, ?_, ?_, ?_, ?_, ?_, ?_, ?_, ?_⟩ <;> exact Cert.KernelIdeal.Hand.kept m ρ h c _ (by decide) (by decide)
  · refine (θ_run Cert.ReferenceIdeal.defs _ _).mono (fun r h c => ⟨(h c).1.trans ?_, (h c).2⟩) (RefSide.run_val m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, RefSide.frame_ri, trivial, algebraic⟩

end Cert.Proof

end
